-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x10 .f32) (main_arg15 : FVec F S10 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x10 .f32 := Host.absf main_arg14
  let main_cst_22 : FVec F S_ .f32 := constant S_ .f32 0x7F800000#32
  let main_v60 : FVec F S128x10 .f32 := broadcastInDim S128x10 ![] bcast_S_S128x10 main_cst_22
  let main_v61 : IVec S128x10 1 := cmpf .olt main_v59 main_v60
  let main_c_23 : IVec S_ 1 := constantI S_ 1 1#1
  let main_v62 : IVec S_ 1 := (fun x v => Host.reduce IntOp.andi x v reducesTo_S128x10_S_d0_1 h_S_) main_v61 main_c_23
  let main_v63 : IVec S_ 1 := andi main_v58 main_v62
  let main_v64 : FVec F S10 .f32 := Host.absf main_arg15
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_v63 main_v67

def fn_part2 {F : FTy → Type} [FloatOps F] (main_arg9 : FVec F S128x128 .f32) (main_arg10 : FVec F S128 .f32) (main_arg11 : FVec F S128x128 .f32) (main_arg12 : FVec F S128x128 .f32) (main_arg13 : FVec F S128 .f32) (main_arg14 : FVec F S128x10 .f32) (main_arg15 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x10 .f32) (main_arg15 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x10 .f32) (main_arg15 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S128x1 : Shape := ⟨2, ![128, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x10 : Shape := ⟨2, ![1, 10]⟩
abbrev S2000x128 : Shape := ⟨2, ![2000, 128]⟩
abbrev S2000x1 : Shape := ⟨2, ![2000, 1]⟩

abbrev nBuf : Space → Nat
  | .hbm => 94
  | .vmem => 40
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x10, .f32⟩
  | .hbm, ⟨15, _⟩ => ⟨S10, .f32⟩
  | .hbm, ⟨16, _⟩ => ⟨S1x800000, .i32⟩
  | .hbm, ⟨17, _⟩ => ⟨S800000, .i32⟩
  | .hbm, ⟨18, _⟩ => ⟨S1x800000, .i32⟩
  | .hbm, ⟨19, _⟩ => ⟨S800000, .i32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S50000, .f32⟩
  | .hbm, ⟨24, _⟩ => ⟨S800000x1, .i32⟩
  | .hbm, ⟨25, _⟩ => ⟨S50000, .f32⟩
  | .hbm, ⟨26, _⟩ => ⟨S50000x1, .f32⟩
  | .hbm, ⟨27, _⟩ => ⟨S_, .f32⟩
  | .hbm, ⟨28, _⟩ => ⟨S50000x1, .f32⟩
  | .hbm, ⟨29, _⟩ => ⟨S50000x1, .f32⟩
  | .hbm, ⟨30, _⟩ => ⟨S_, .f32⟩
  | .hbm, ⟨31, _⟩ => ⟨S50000x1, .f32⟩
  | .hbm, ⟨32, _⟩ => ⟨S50000x1, .f32⟩
  | .hbm, ⟨33, _⟩ => ⟨S_, .f32⟩
  | .hbm, ⟨34, _⟩ => ⟨S50000, .f32⟩
  | .hbm, ⟨35, _⟩ => ⟨S_, .f32⟩
  | .hbm, ⟨36, _⟩ => ⟨S128, .f32⟩
  | .hbm, ⟨37, _⟩ => ⟨S50000x1, .i32⟩
  | .hbm, ⟨38, _⟩ => ⟨S128, .f32⟩
  | .hbm, ⟨39, _⟩ => ⟨S128x1, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S_, .f32⟩
  | .hbm, ⟨44, _⟩ => ⟨S128x1, .f32⟩
  | .hbm, ⟨45, _⟩ => ⟨S128x1, .f32⟩
  | .hbm, ⟨46, _⟩ => ⟨S50000x1, .i32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S_, .f32⟩
  | .hbm, ⟨57, _⟩ => ⟨S50000x128, .f32⟩
  | .hbm, ⟨58, _⟩ => ⟨S800000x1, .i32⟩
  | .hbm, ⟨59, _⟩ => ⟨S50000x128, .f32⟩
  | .hbm, ⟨60, _⟩ => ⟨S1x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S_, .f32⟩
  | .hbm, ⟨72, _⟩ => ⟨S50000x128, .f32⟩
  | .hbm, ⟨73, _⟩ => ⟨S800000x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S1x128, .f32⟩
  | .hbm, ⟨91, _⟩ => ⟨S1x128, .f32⟩
  | .hbm, ⟨92, _⟩ => ⟨S1x10, .f32⟩
  | .hbm, ⟨93, _⟩ => ⟨S128x10, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S5000x128, .f32⟩
  | .local _ .vmem, ⟨21, _⟩ => ⟨S5000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x1, .f32⟩
  | .local _ .vmem, ⟨27, _⟩ => ⟨S2000x1, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S2000x1, .i32⟩
  | .local _ .vmem, ⟨32, _⟩ => ⟨S2000x1, .i32⟩
  | .local _ .vmem, ⟨33, _⟩ => ⟨S128x1, .f32⟩
  | .local _ .vmem, ⟨34, _⟩ => ⟨S128x128, .f32⟩
  | .local _ .vmem, ⟨35, _⟩ => ⟨S1x128, .f32⟩
  | .local _ .vmem, ⟨36, _⟩ => ⟨S128x10, .f32⟩
  | .local _ .vmem, ⟨37, _⟩ => ⟨S1x10, .f32⟩
  | .local _ .vmem, ⟨38, _⟩ => ⟨S128x10, .f32⟩
  | .local _ .vmem, ⟨39, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_cst_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_5 : Ref sig .tc := ⟨.hbm, 40, rfl⟩
abbrev main_v18 : Ref sig .tc := ⟨.hbm, 41, rfl⟩
abbrev main_v19 : Ref sig .tc := ⟨.hbm, 42, rfl⟩
abbrev main_cst_6 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c : Ref sig .tc := ⟨.hbm, 47, rfl⟩
abbrev main_v23 : Ref sig .tc := ⟨.hbm, 48, rfl⟩
abbrev main_v24 : Ref sig .tc := ⟨.hbm, 49, rfl⟩
abbrev main_c_7 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_v36 : Ref sig .tc := ⟨.hbm, 64, rfl⟩
abbrev main_c_10 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_12 : Ref sig .tc := ⟨.hbm, 77, rfl⟩
abbrev main_v47 : Ref sig .tc := ⟨.hbm, 78, rfl⟩
abbrev main_v48 : Ref sig .tc := ⟨.hbm, 79, rfl⟩
abbrev main_c_13 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_14 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg12_0 : Ref sig .tc := ⟨.vmem, 38, rfl⟩
abbrev cc2_scratch0 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem12_0 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v39 : BitVec 1 := Scalar.cmpi .eq arg0 c24_i32
  let v40 : BitVec 32 := Scalar.extui v39
  let c0_i32_21 : BitVec 32 := 0#32
  let v41 : BitVec 1 := Scalar.cmpi .ne v40 c0_i32_21
  v41

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x1 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S128x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S128x10 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x10 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S128x10 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x1 : S_.BroadcastsInDim S50000x1 (![] : Fin 0 → Fin S50000x1.rank)
  bcast_S_S128 : S_.BroadcastsInDim S128 (![] : Fin 0 → Fin S128.rank)
  bcast_S50000_S50000x1_0 : S50000.BroadcastsInDim S50000x1 (![0] : Fin 1 → Fin S50000x1.rank)
  shapeCasts_S128_S128x1 : S128.ShapeCasts S128x1
  bcast_S_S128x1 : S_.BroadcastsInDim S128x1 (![] : Fin 0 → Fin S128x1.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S10_S1x10 : S10.ShapeCasts S1x10
  shapeCasts_S128x128_S128x128 : S128x128.ShapeCasts S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  broadcasts_S1x128_S2000x128 : S1x128.Broadcasts S2000x128
  iota_S2000x128_d1_w32 : S2000x128.Iotas .tc 32 [1]
  natLt_1_32 : 1 < 32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  broadcasts_S1x128_S128x128 : S1x128.Broadcasts S128x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  reduces_S128x10_S128 : S128x10.Reduces [1] S128
  broadcasts_S128x1_S128x10 : S128x1.Broadcasts S128x10
  scatter_S50000_S800000x1_S800000_n_0_0_1_wf : ScatterDims.WF S50000 S800000x1 S800000 [] [0] [0] 1
  scatter_S128_S50000x1_S50000_n_0_0_1_wf : ScatterDims.WF S128 S50000x1 S50000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  dot_S2000x128_S2000x128_S128x128_0_0_1_1_n_n_wf : DotDims.WF S2000x128 S2000x128 S128x128 [0] [0] [1] [1] [] []
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x1.size a ≤ S50000x1.size a
  hwx2_6 : ∀ i : grid2.Coords, EltTy.bits .i32 = 32 ∨ (Rect.block (s := S50000x1) S2000x1.size (cc2_transform_6 i) (hinb2_6 i)).WholeWords (EltTy.packing .i32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x1.size a ≤ S128x1.size a
  hwx2_7 : ∀ i : grid2.Coords, EltTy.bits .f32 = 32 ∨ (Rect.block (s := S128x1) S128x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x10.size a ≤ S128x10.size a
  hwx2_10 : ∀ i : grid2.Coords, EltTy.bits .f32 = 32 ∨ (Rect.block (s := S128x10) S128x10.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x10.size a ≤ S1x10.size a
  hwx2_11 : ∀ i : grid2.Coords, EltTy.bits .f32 = 32 ∨ (Rect.block (s := S1x10) S1x10.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S128x10.size a ≤ S128x10.size a
  hwx2_12 : ∀ i : grid2.Coords, EltTy.bits .f32 = 32 ∨ (Rect.block (s := S128x10) S128x10.size (cc2_transform_12 i) (hinb2_12 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S2000x128_S128x128_0_0_1_1_n_n : DotDims S2000x128 S2000x128 S128x128 where
  lhsContracting := [0]
  rhsContracting := [0]
  lhsNonContracting := [1]
  rhsNonContracting := [1]
  lhsBatch := []
  rhsBatch := []
  wf := dot_S2000x128_S2000x128_S128x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v56) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S2000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v21) S128x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg12) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v58) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg14) S128x10.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v59) S1x10.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v60) S128x10.size cc2_transform_12 reads2_12 true true 1 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

abbrev idle2 : Fin 13 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun i => !(k2_cond2 i == 1#1) | ⟨_ + 13, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x1 : Shape := ⟨2, ![128, 1]⟩
abbrev S1x10 : Shape := ⟨2, ![1, 10]⟩

abbrev nBuf : Space → Nat
  | .hbm => 164
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x10, .f32⟩
  | 15 => ⟨S10, .f32⟩
  | 16 => ⟨S1x800000, .i32⟩
  | 17 => ⟨S800000, .i32⟩
  | 18 => ⟨S1x800000, .i32⟩
  | 19 => ⟨S800000, .i32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x128, .f32⟩
  | 29 => ⟨S_, .f32⟩
  | 30 => ⟨S50000x128, .f32⟩
  | 31 => ⟨S800000x1, .i32⟩
  | 32 => ⟨S50000x128, .f32⟩
  | 33 => ⟨S_, .f32⟩
  | 34 => ⟨S800000, .f32⟩
  | 35 => ⟨S_, .f32⟩
  | 36 => ⟨S50000, .f32⟩
  | 37 => ⟨S800000x1, .i32⟩
  | 38 => ⟨S50000, .f32⟩
  | 39 => ⟨S_, .f32⟩
  | 40 => ⟨S50000, .f32⟩
  | 41 => ⟨S50000, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S_, .f32⟩
  | 64 => ⟨S50000x128, .f32⟩
  | 65 => ⟨S800000x1, .i32⟩
  | 66 => ⟨S50000x128, .f32⟩
  | 67 => ⟨S_, .f32⟩
  | 68 => ⟨S800000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S50000, .f32⟩
  | 75 => ⟨S50000, .f32⟩
  | 76 => ⟨S50000x1, .f32⟩
  | 77 => ⟨S50000x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S50000x128, .f32⟩
  | 84 => ⟨S50000x128, .f32⟩
  | 85 => ⟨S_, .f32⟩
  | 86 => ⟨S50000x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S_, .f32⟩
  | 102 => ⟨S800000, .f32⟩
  | 103 => ⟨S_, .f32⟩
  | 104 => ⟨S50000, .f32⟩
  | 105 => ⟨S800000x1, .i32⟩
  | 106 => ⟨S50000, .f32⟩
  | 107 => ⟨S_, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S50000x128, .f32⟩
  | 114 => ⟨S1x128, .f32⟩
  | 115 => ⟨S50000x128, .f32⟩
  | 116 => ⟨S50000x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S_, .f32⟩
  | 123 => ⟨S128x128, .f32⟩
  | 124 => ⟨S50000x1, .i32⟩
  | 125 => ⟨S128x128, .f32⟩
  | 126 => ⟨S_, .f32⟩
  | 127 => ⟨S50000, .f32⟩
  | _ => ⟨S50000x128, .f32⟩

abbrev hbmTy0_1 (i : Nat) : BufTy := match i % 128 with
  | 0 => ⟨S_, .f32⟩
  | 1 => ⟨S128, .f32⟩
  | 2 => ⟨S50000x1, .i32⟩
  | 3 => ⟨S128, .f32⟩
  | 4 => ⟨S_, .f32⟩
  | 5 => ⟨S128, .f32⟩
  | 6 => ⟨S128, .f32⟩
  | 7 => ⟨S128x1, .f32⟩
  | 8 => ⟨S128x128, .f32⟩
  | 9 => ⟨S128x128, .f32⟩
  | 10 => ⟨S128x128, .f32⟩
  | 11 => ⟨S1x128, .f32⟩
  | 12 => ⟨S128x128, .f32⟩
  | 13 => ⟨S128x128, .f32⟩
  | 14 => ⟨S_, .f32⟩
  | 15 => ⟨S128x128, .f32⟩
  | 16 => ⟨S128x128, .f32⟩
  | 17 => ⟨S128x10, .f32⟩
  | 18 => ⟨S1x10, .f32⟩
  | 19 => ⟨S128x10, .f32⟩
  | 20 => ⟨S128x10, .f32⟩
  | 21 => ⟨S_, .f32⟩
  | 22 => ⟨S128, .f32⟩
  | 23 => ⟨S_, .f32⟩
  | 24 => ⟨S128, .f32⟩
  | 25 => ⟨S128, .f32⟩
  | 26 => ⟨S128x1, .f32⟩
  | 27 => ⟨S128x10, .f32⟩
  | 28 => ⟨S128x10, .f32⟩
  | 29 => ⟨S128x10, .f32⟩
  | 30 => ⟨S_, .f32⟩
  | 31 => ⟨S128, .f32⟩
  | 32 => ⟨S128x1, .f32⟩
  | 33 => ⟨S128x1, .f32⟩
  | 34 => ⟨S128x10, .f32⟩
  | 35 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call0_cst : Ref sig .tc := ⟨.hbm, 51, rfl⟩
abbrev main_call0_v0 : Ref sig .tc := ⟨.hbm, 52, rfl⟩
abbrev main_v29 : Ref sig .tc := ⟨.hbm, 53, rfl⟩
abbrev main_c_4 : Ref sig .tc := ⟨.hbm, 54, rfl⟩
abbrev main_v30 : Ref sig .tc := ⟨.hbm, 55, rfl⟩
abbrev main_v31 : Ref sig .tc := ⟨.hbm, 56, rfl⟩
abbrev main_c_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_6 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_cst_8 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_call1_cst : Ref sig .tc := ⟨.hbm, 85, rfl⟩
abbrev main_call1_v0 : Ref sig .tc := ⟨.hbm, 86, rfl⟩
abbrev main_v55 : Ref sig .tc := ⟨.hbm, 87, rfl⟩
abbrev main_c_10 : Ref sig .tc := ⟨.hbm, 88, rfl⟩
abbrev main_v56 : Ref sig .tc := ⟨.hbm, 89, rfl⟩
abbrev main_v57 : Ref sig .tc := ⟨.hbm, 90, rfl⟩
abbrev main_c_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_15 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call2_cst : Ref sig .tc := ⟨.hbm, 119, rfl⟩
abbrev main_call2_v0 : Ref sig .tc := ⟨.hbm, 120, rfl⟩
abbrev main_v81 : Ref sig .tc := ⟨.hbm, 121, rfl⟩
abbrev main_cst_16 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_cst_17 : Ref sig .tc := ⟨.hbm, 126, rfl⟩
abbrev main_v85 : Ref sig .tc := ⟨.hbm, 127, rfl⟩
abbrev main_cst_18 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_19 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_call3_cst : Ref sig .tc := ⟨.hbm, 142, rfl⟩
abbrev main_call3_v0 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_call4_cst : Ref sig .tc := ⟨.hbm, 149, rfl⟩
abbrev main_call4_v0 : Ref sig .tc := ⟨.hbm, 150, rfl⟩
abbrev main_call4_cst_0 : Ref sig .tc := ⟨.hbm, 151, rfl⟩
abbrev main_call4_v1 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_v6 : Ref sig .tc := ⟨.hbm, 157, rfl⟩
abbrev main_call4_cst_1 : Ref sig .tc := ⟨.hbm, 158, rfl⟩
abbrev main_call4_v7 : Ref sig .tc := ⟨.hbm, 159, rfl⟩
abbrev main_call4_v8 : Ref sig .tc := ⟨.hbm, 160, rfl⟩
abbrev main_call4_v9 : Ref sig .tc := ⟨.hbm, 161, rfl⟩
abbrev main_call4_v10 : Ref sig .tc := ⟨.hbm, 162, rfl⟩
abbrev main_v103 : Ref sig .tc := ⟨.hbm, 163, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128x128 : S_.BroadcastsInDim S128x128 (![] : Fin 0 → Fin S128x128.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1
  scatter_S128_S50000x1_S50000_n_0_0_1_wf : ScatterDims.WF S128 S50000x1 S50000 [] [0] [0] 1
  dot_S128x128_S128x128_S128x128_1_0_0_1_n_n_wf : DotDims.WF S128x128 S128x128 S128x128 [1] [0] [0] [1] [] []
  dot_S128x128_S128x10_S128x10_1_0_0_1_n_n_wf : DotDims.WF S128x128 S128x10 S128x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x10_S128x10_1_0_0_1_n_n : DotDims S128x128 S128x10 S128x10 where
  lhsContracting := [1]
  rhsContracting := [0]
  lhsNonContracting := [0]
  rhsNonContracting := [1]
  lhsBatch := []
  rhsBatch := []
  wf := dot_S128x128_S128x10_S128x10_1_0_0_1_n_n_wf

class Facts : Prop extends Facts₀ where

variable [Facts]
-- ==== Proof.KbRegion0.lean ====
import proofs.«424841_j16192026706591_2_alg».proof.Proof.Gen.Kernel.Launch
import proofs.«424841_j16192026706591_2_alg».proof.Proof.Gen.Kernel.Skeleton
import proofs.«424841_j16192026706591_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_rows : Rect S5000x128 := Rect.unit (s := S5000x128) ![0, 0] S5000x128.size inb_S5000x128_S5000x128_0_0
abbrev r0_col : Rect S5000x1 := Rect.unit (s := S5000x1) ![0, 0] S5000x1.size inb_S5000x1_S5000x1_0_0
abbrev r0_mat : Rect S128x128 := Rect.unit (s := S128x128) ![0, 0] S128x128.size inb_S128x128_S128x128_0_0
abbrev r0_row : Rect S1x128 := Rect.unit (s := S1x128) ![0, 0] S1x128.size inb_S1x128_S1x128_0_0

def out0_6 (x0 : Vec F S5000x128 .f32) (x1 : Vec F S5000x128 .f32) (x2 : Vec F S5000x1 .f32) (x3 : Vec F S128x128 .f32)
    (x4 : Vec F S1x128 .f32) (x5 : Vec F S128x128 .f32) : Vec F S5000x128 .f32 :=
  View.canon [⟨r0_rows, k0_pay1 (View.ld x0 r0_rows) (View.ld x2 r0_col) (View.ld x1 r0_rows) (View.ld x3 r0_mat) (View.ld x5 r0_mat) (View.ld x4 r0_row)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by dsimp only [dat0]

/-- Both sides are the window's block of the entry array. -/
theorem before0 (c : Dev nD) (t : Fin cfg0.N) : ∀ w : Fin cfg0.W, w.val < 6 → ∀ d, (dat0 V c).before w t d = (dat0 V c).after w t
  | 0, _, d | 1, _, d | 2, _, d | 3, _, d | 4, _, d | 5, _, d =>
    ((dat0 V c).before_in_eq_fetched _ rfl (fun _ => rfl) (fun _ _ _ => rfl) (fun _ => rfl) t d).trans rfl
  | 6, h, _ => absurd h (by decide)

/-- At every point the body reads its six input blocks whole and overwrites the output block with the layer's value on them. -/
theorem body_obligation0 (c : Dev nD) : BodyObligation (dat0 (F := F) V c) (defs₀ (F := F)) Variants.none () Set.univ := fun t => by
  rw [bigSep_W0, bigSep_W0]
  simp (disch := decide) only [before0 V c t]
  dsimp only [dat0, Dat.owesAt, Dat.bound]
  show _ ⊢ wp frame _ _ (bodyAt0 t) _
  unfold bodyAt0
  generalize iblk0 V c 0 t = x0, iblk0 V c 1 t = x1, iblk0 V c 2 t = x2, iblk0 V c 3 t = x3, iblk0 V c 4 t = x4, iblk0 V c 5 t = x5
  simp only [cc0__sage_layer_kernel_eq_skeleton]; unfold cc0__sage_layer_kernel_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, -, H6⟩⟩
  subst hf0 hf1 hf2 hf3 hf4 hf5
  sl_exec
  sl_step
  iframe HΦ Ho
  isplitl [H0]; · iexists _; iframe H0; ipureintro; rfl
  isplitl [H1]; · iexists _; iframe H1; ipureintro; rfl
  isplitl [H2]; · iexists _; iframe H2; ipureintro; rfl
  isplitl [H3]; · iexists _; iframe H3; ipureintro; rfl
  isplitl [H4]; · iexists _; iframe H4; ipureintro; rfl
  isplitl [H5]; · iexists _; iframe H5; ipureintro; rfl
  iexists _; iframe H6; ipureintro
  exact View.read_writes_eq_canon _ _ _ (View.cover_of_tiled _ S5000x128.size rfl)

end Cert.Kernel.Reg

end
-- ==== Proof.KbRegion1.lean ====
import proofs.«424841_j16192026706591_2_alg».proof.Proof.Gen.Kernel.Launch
import proofs.«424841_j16192026706591_2_alg».proof.Proof.Gen.Kernel.Skeleton
import proofs.«424841_j16192026706591_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_rows : Rect S5000x128 := Rect.unit (s := S5000x128) ![0, 0] S5000x128.size inb_S5000x128_S5000x128_0_0
abbrev r1_col : Rect S5000x1 := Rect.unit (s := S5000x1) ![0, 0] S5000x1.size inb_S5000x1_S5000x1_0_0
abbrev r1_mat : Rect S128x128 := Rect.unit (s := S128x128) ![0, 0] S128x128.size inb_S128x128_S128x128_0_0
abbrev r1_row : Rect S1x128 := Rect.unit (s := S1x128) ![0, 0] S1x128.size inb_S1x128_S1x128_0_0

def out1_6 (x0 : Vec F S5000x128 .f32) (x1 : Vec F S5000x128 .f32) (x2 : Vec F S5000x1 .f32) (x3 : Vec F S128x128 .f32)
    (x4 : Vec F S1x128 .f32) (x5 : Vec F S128x128 .f32) : Vec F S5000x128 .f32 :=
  View.canon [⟨r1_rows, k1_pay1 (View.ld x0 r1_rows) (View.ld x2 r1_col) (View.ld x1 r1_rows) (View.ld x3 r1_mat) (View.ld x5 r1_mat) (View.ld x4 r1_row)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

/-- Both sides are the window's block of the entry array. -/
theorem before1 (c : Dev nD) (t : Fin cfg1.N) : ∀ w : Fin cfg1.W, w.val < 6 → ∀ d, (dat1 V c).before w t d = (dat1 V c).after w t
  | 0, _, d | 1, _, d | 2, _, d | 3, _, d | 4, _, d | 5, _, d =>
    ((dat1 V c).before_in_eq_fetched _ rfl (fun _ => rfl) (fun _ _ _ => rfl) (fun _ => rfl) t d).trans rfl
  | 6, h, _ => absurd h (by decide)

/-- At every point the body reads its six input blocks whole and overwrites the output block with the layer's value on them. -/
theorem body_obligation1 (c : Dev nD) : BodyObligation (dat1 (F := F) V c) (defs₀ (F := F)) Variants.none () Set.univ := fun t => by
  rw [bigSep_W1, bigSep_W1]
  simp (disch := decide) only [before1 V c t]
  dsimp only [dat1, Dat.owesAt, Dat.bound]
  show _ ⊢ wp frame _ _ (bodyAt1 t) _
  unfold bodyAt1
  generalize iblk1 V c 0 t = x0, iblk1 V c 1 t = x1, iblk1 V c 2 t = x2, iblk1 V c 3 t = x3, iblk1 V c 4 t = x4, iblk1 V c 5 t = x5
  simp only [cc1__sage_layer_kernel_eq_skeleton]; unfold cc1__sage_layer_kernel_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, -, H6⟩⟩
  subst hf0 hf1 hf2 hf3 hf4 hf5
  sl_exec
  sl_step
  iframe HΦ Ho
  isplitl [H0]; · iexists _; iframe H0; ipureintro; rfl
  isplitl [H1]; · iexists _; iframe H1; ipureintro; rfl
  isplitl [H2]; · iexists _; iframe H2; ipureintro; rfl
  isplitl [H3]; · iexists _; iframe H3; ipureintro; rfl
  isplitl [H4]; · iexists _; iframe H4; ipureintro; rfl
  isplitl [H5]; · iexists _; iframe H5; ipureintro; rfl
  iexists _; iframe H6; ipureintro
  exact View.read_writes_eq_canon _ _ _ (View.cover_of_tiled _ S5000x128.size rfl)

end Cert.Kernel.Reg

end
-- ==== Proof.KbRegion2Run.lean ====
import proofs.«424841_j16192026706591_2_alg».proof.Proof.Gen.Kernel.Launch
import proofs.«424841_j16192026706591_2_alg».proof.Proof.Gen.Kernel.Skeleton
import proofs.«424841_j16192026706591_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1
theorem hcond2_1 : ∀ t : Fin cfg2.N, cond2_1 (grid2.coords t) ↔ t.val = 24 :=
  (by decide +kernel : ∀ t : Fin grid2.N, cond2_1 (grid2.coords t) ↔ t.val = 24)

theorem liveAt2_in (w : Fin cfg2.W) (hw : w.val < 12) : ∀ t : Fin cfg2.N, cfg2.idle w (grid2.coords t) = false := by
  revert w; decide +kernel
theorem idleAt2_12 : ∀ t : Fin cfg2.N, ¬cond2_1 (grid2.coords t) → cfg2.idle 12 (grid2.coords t) = true := by decide +kernel
theorem noFlush2_12 : ∀ t : Fin cfg2.N, ¬cond2_1 (grid2.coords t) → (cfg2.win 12).flush t = false := by decide +kernel
theorem liveAt2_12 : ∀ t : Fin cfg2.N, cond2_1 (grid2.coords t) → cfg2.idle 12 (grid2.coords t) = false := by decide +kernel

abbrev scM2_0 : Memref sig .tc .vmem S128x128 .f32 := Memref.whole cc2_scratch0

def rest2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA Pipeline.scopedRest rest2
  rw [BI.bigSep_erase (i := cc2_scratch0) (by decide)]
  simp only [scM2_0, owns_whole]
  rfl

-- The body's operands: a grid point and fourteen whole memrefs.
structure Args2 where
  i : grid2.Coords
  m1 : Memref sig .tc .vmem S2000x128 .f32
  w1 : m1.IsWhole
  m2 : Memref sig .tc .vmem S2000x128 .f32
  w2 : m2.IsWhole
  m3 : Memref sig .tc .vmem S2000x1 .f32
  w3 : m3.IsWhole
  m4 : Memref sig .tc .vmem S128x128 .f32
  w4 : m4.IsWhole
  m5 : Memref sig .tc .vmem S1x128 .f32
  w5 : m5.IsWhole
  m6 : Memref sig .tc .vmem S128x128 .f32
  w6 : m6.IsWhole
  m7 : Memref sig .tc .vmem S2000x1 .i32
  w7 : m7.IsWhole
  m8 : Memref sig .tc .vmem S128x1 .f32
  w8 : m8.IsWhole
  m9 : Memref sig .tc .vmem S128x128 .f32
  w9 : m9.IsWhole
  m10 : Memref sig .tc .vmem S1x128 .f32
  w10 : m10.IsWhole
  m11 : Memref sig .tc .vmem S128x10 .f32
  w11 : m11.IsWhole
  m12 : Memref sig .tc .vmem S1x10 .f32
  w12 : m12.IsWhole
  m13 : Memref sig .tc .vmem S128x10 .f32
  w13 : m13.IsWhole
  m14 : Memref sig .tc .vmem S128x128 .f32
  w14 : m14.IsWhole

-- The contents of the twelve inputs.
structure Ins2 (F : FTy → Type) where
  x0 : Vec F S2000x128 .f32
  x1 : Vec F S2000x128 .f32
  x2 : Vec F S2000x1 .f32
  x3 : Vec F S128x128 .f32
  x4 : Vec F S1x128 .f32
  x5 : Vec F S128x128 .f32
  x6 : Vec F S2000x1 .i32
  x7 : Vec F S128x1 .f32
  x8 : Vec F S128x128 .f32
  x9 : Vec F S1x128 .f32
  x10 : Vec F S128x10 .f32
  x11 : Vec F S1x10 .f32

abbrev Args2.body (o : Args2) : Prog (TpuEff nD τ sig (Elt F) Λ₀ .tc) PUnit :=
  cc2__sage3_pool_kernel o.i o.m1 o.w1 o.m2 o.w2 o.m3 o.w3 o.m4 o.w4 o.m5 o.w5 o.m6 o.w6 o.m7 o.w7 o.m8 o.w8 o.m9 o.w9 o.m10 o.w10 o.m11 o.w11 o.m12 o.w12 o.m13 o.w13 o.m14 o.w14

-- The inputs owned at their contents.
def Args2.ins (c : Dev nD) (o : Args2) (x : Ins2 F) : sProp 𝕄 :=
  iprop(owns (c : Thread nD τ) o.m1 fullShare x.x0 ∗ owns (c : Thread nD τ) o.m2 fullShare x.x1 ∗ owns (c : Thread nD τ) o.m3 fullShare x.x2 ∗ owns (c : Thread nD τ) o.m4 fullShare x.x3 ∗ owns (c : Thread nD τ) o.m5 fullShare x.x4 ∗ owns (c : Thread nD τ) o.m6 fullShare x.x5 ∗ owns (c : Thread nD τ) o.m7 fullShare x.x6 ∗ owns (c : Thread nD τ) o.m8 fullShare x.x7 ∗ owns (c : Thread nD τ) o.m9 fullShare x.x8 ∗ owns (c : Thread nD τ) o.m10 fullShare x.x9 ∗ owns (c : Thread nD τ) o.m11 fullShare x.x10 ∗ owns (c : Thread nD τ) o.m12 fullShare x.x11)

-- A triple for the body in continuation form: the inputs are kept, `P` becomes `P'`.
abbrev Runs2 (c : Dev nD) (o : Args2) (x : Ins2 F) (P P' : sProp 𝕄) : Prop :=
  ∀ (E : Set ℕ) (K : PUnit → sProp 𝕄),
    iprop(o.ins c x ∗ P ∗ (iprop(o.ins c x ∗ P') -∗ K ⟨⟩)) ⊢ wp frame (wpE (defs₀ (F := F)) Variants.none c none) E o.body K

-- Reading through a whole memref is a bijection on contents.
theorem owns_eq_unread {sp : Space} {s : Shape} {e : EltTy} {m : Memref sig .tc sp s e} (h : m.IsWhole) (c : Dev nD) (X : Vec F s e) :
    (owns (c : Thread nD τ) m fullShare X : sProp 𝕄) = (m.view.loc (c : Thread nD τ) ↦[m.view.set]{fullShare} h.unread X) := by
  have h₁ : (owns (c : Thread nD τ) m fullShare X : sProp 𝕄) ⊢ (m.view.loc (c : Thread nD τ) ↦[m.view.set]{fullShare} h.unread X) := by
    unfold owns; iintro ⟨%f, %hf, H⟩; obtain rfl := h.eq_unread hf; iexact H
  have h₂ : (m.view.loc (c : Thread nD τ) ↦[m.view.set]{fullShare} h.unread X : sProp 𝕄) ⊢ owns (c : Thread nD τ) m fullShare X := by
    unfold owns; iintro H; iexists _; isplitr; · ipureintro; exact h.read_unread X
    iexact H
  exact BI.equiv_iff.mp ⟨h₁, h₂⟩

-- The scratch after a point, and the output block computed from it.
abbrev upd2 (x : Ins2 F) (xs : Vec F S128x128 .f32) : Vec F S128x128 .f32 := k2_pay1 (k2_pay4 x.x0 x.x2 x.x1 x.x3 x.x5 x.x4 x.x6 xs)
abbrev head2 (x : Ins2 F) (s : Vec F S128x128 .f32) : Vec F S128x10 .f32 := k2_pay2 s x.x7 x.x8 x.x9 x.x10 x.x11

private theorem hz2 : (![0, 0] : Fin 2 → ℕ) = fun _ => 0 := by funext a; fin_cases a <;> rfl

-- The body's triple where only the first condition holds.
theorem kernelRun2_A (c : Dev nD) (o : Args2) (hc0 : cond2_0 o.i) (hc1 : ¬cond2_1 o.i) (x : Ins2 F) (xi12 : Vec F S128x10 .f32) :
    Runs2 c o x iprop(owns (c : Thread nD τ) o.m13 fullShare xi12 ∗ ∃ d, owns (c : Thread nD τ) o.m14 fullShare d)
      iprop(owns (c : Thread nD τ) o.m13 fullShare xi12 ∗ owns (c : Thread nD τ) o.m14 fullShare (upd2 x (k2_pay3 (F := F)))) := by
  obtain ⟨i, arg1, harg1, arg2, harg2, arg3, harg3, arg4, harg4, arg5, harg5, arg6, harg6, arg7, harg7, arg8, harg8, arg9, harg9, arg10, harg10, arg11, harg11, arg12, harg12, arg13, harg13, arg14, harg14⟩ := o
  cases x
  intro E K
  dsimp only [Args2.body, Args2.ins, upd2, head2]
  rw [owns_eq_unread harg1, owns_eq_unread harg2, owns_eq_unread harg3, owns_eq_unread harg4, owns_eq_unread harg5, owns_eq_unread harg6, owns_eq_unread harg7, owns_eq_unread harg8, owns_eq_unread harg9, owns_eq_unread harg10, owns_eq_unread harg11, owns_eq_unread harg12, owns_eq_unread harg13]
  unfold owns
  sl_unfold [cc2__sage3_pool_kernel]
  iintro ⟨⟨H0, H1, H2, H3, H4, H5, H6, H7, H8, H9, H10, H11⟩, ⟨H12, %ds0, %fs0, -, HS0⟩, Hk⟩
  sl_exec (disch := first | exact hc0 | exact hc1)
  sl_step
  iapply Hk
  isplitl [H0 H1 H2 H3 H4 H5 H6 H7 H8 H9 H10 H11]
  · iframe
  isplitl [H12]
  · iexact H12
  iexists _; isplitr; swap; · iexact HS0
  ipureintro
  rw [View.read_writes_eq_canon _ _ _ (View.cover_of_tiledL _ S128x128.size (by sl_kernel_rfl))]
  sl_unfold_words
  rw [View.canon_cons_unit_zero (S := S128x128) hz2, View.readCov_unit_zero (S := S128x128) _ hz2]
  simp only [View.readAt_eq_ld, Memref.IsWhole.read_unread, View.ld_unit_zero (S := S2000x128) hz2, View.ld_unit_zero (S := S2000x1) hz2, View.ld_unit_zero (S := S128x128) hz2,
    View.ld_unit_zero (S := S1x128) hz2, View.ld_unit_zero (S := S128x1) hz2, View.ld_unit_zero (S := S128x10) hz2, View.ld_unit_zero (S := S1x10) hz2]

-- The body's triple where neither condition holds.
theorem kernelRun2_B (c : Dev nD) (o : Args2) (hc0 : ¬cond2_0 o.i) (hc1 : ¬cond2_1 o.i) (x : Ins2 F) (xs0 : Vec F S128x128 .f32) (xi12 : Vec F S128x10 .f32) :
    Runs2 c o x iprop(owns (c : Thread nD τ) o.m13 fullShare xi12 ∗ owns (c : Thread nD τ) o.m14 fullShare xs0)
      iprop(owns (c : Thread nD τ) o.m13 fullShare xi12 ∗ owns (c : Thread nD τ) o.m14 fullShare (upd2 x xs0)) := by
  obtain ⟨i, arg1, harg1, arg2, harg2, arg3, harg3, arg4, harg4, arg5, harg5, arg6, harg6, arg7, harg7, arg8, harg8, arg9, harg9, arg10, harg10, arg11, harg11, arg12, harg12, arg13, harg13, arg14, harg14⟩ := o
  cases x
  intro E K
  dsimp only [Args2.body, Args2.ins, upd2, head2]
  rw [owns_eq_unread harg1, owns_eq_unread harg2, owns_eq_unread harg3, owns_eq_unread harg4, owns_eq_unread harg5, owns_eq_unread harg6, owns_eq_unread harg7, owns_eq_unread harg8, owns_eq_unread harg9, owns_eq_unread harg10, owns_eq_unread harg11, owns_eq_unread harg12, owns_eq_unread harg13, owns_eq_unread harg14 c xs0]
  unfold owns
  sl_unfold [cc2__sage3_pool_kernel]
  iintro ⟨⟨H0, H1, H2, H3, H4, H5, H6, H7, H8, H9, H10, H11⟩, ⟨H12, HS0⟩, Hk⟩
  sl_exec (disch := first | exact hc0 | exact hc1)
  sl_step
  iapply Hk
  isplitl [H0 H1 H2 H3 H4 H5 H6 H7 H8 H9 H10 H11]
  · iframe
  isplitl [H12]
  · iexact H12
  iexists _; isplitr; swap; · iexact HS0
  ipureintro
  rw [View.read_writes_eq_canon _ _ _ (View.cover_of_tiledL _ S128x128.size (by sl_kernel_rfl))]
  sl_unfold_words
  rw [View.canon_unit_zero (S := S128x128) hz2]
  simp only [View.readAt_eq_ld, Memref.IsWhole.read_unread, View.ld_unit_zero (S := S2000x128) hz2, View.ld_unit_zero (S := S2000x1) hz2, View.ld_unit_zero (S := S128x128) hz2,
    View.ld_unit_zero (S := S1x128) hz2, View.ld_unit_zero (S := S128x1) hz2, View.ld_unit_zero (S := S128x10) hz2, View.ld_unit_zero (S := S1x10) hz2]

-- The body's triple where only the second condition holds.
theorem kernelRun2_C (c : Dev nD) (o : Args2) (hc0 : ¬cond2_0 o.i) (hc1 : cond2_1 o.i) (x : Ins2 F) (xs0 : Vec F S128x128 .f32) :
    Runs2 c o x iprop((∃ d, owns (c : Thread nD τ) o.m13 fullShare d) ∗ owns (c : Thread nD τ) o.m14 fullShare xs0)
      iprop(owns (c : Thread nD τ) o.m13 fullShare (head2 x (upd2 x xs0)) ∗ owns (c : Thread nD τ) o.m14 fullShare (upd2 x xs0)) := by
  obtain ⟨i, arg1, harg1, arg2, harg2, arg3, harg3, arg4, harg4, arg5, harg5, arg6, harg6, arg7, harg7, arg8, harg8, arg9, harg9, arg10, harg10, arg11, harg11, arg12, harg12, arg13, harg13, arg14, harg14⟩ := o
  cases x
  intro E K
  dsimp only [Args2.body, Args2.ins, upd2, head2]
  rw [owns_eq_unread harg1, owns_eq_unread harg2, owns_eq_unread harg3, owns_eq_unread harg4, owns_eq_unread harg5, owns_eq_unread harg6, owns_eq_unread harg7, owns_eq_unread harg8, owns_eq_unread harg9, owns_eq_unread harg10, owns_eq_unread harg11, owns_eq_unread harg12, owns_eq_unread harg14 c xs0]
  unfold owns
  sl_unfold [cc2__sage3_pool_kernel]
  iintro ⟨⟨H0, H1, H2, H3, H4, H5, H6, H7, H8, H9, H10, H11⟩, ⟨⟨%d12, %f12, -, H12⟩, HS0⟩, Hk⟩
  sl_exec (disch := first | exact hc0 | exact hc1)
  sl_step
  iapply Hk
  isplitl [H0 H1 H2 H3 H4 H5 H6 H7 H8 H9 H10 H11]
  · iframe
  isplitl [H12]
  · iexists _; isplitr; swap; · iexact H12
    ipureintro
    rw [View.read_writes_eq_canon _ _ _ (View.cover_of_tiledL _ S128x10.size (by sl_kernel_rfl))]
    sl_unfold_words
    rw [View.canon_unit_zero (S := S128x10) hz2, View.readCov_unit_zero (S := S128x128) _ hz2]
    simp only [View.readAt_eq_ld, Memref.IsWhole.read_unread, View.ld_unit_zero (S := S2000x128) hz2, View.ld_unit_zero (S := S2000x1) hz2, View.ld_unit_zero (S := S128x128) hz2,
      View.ld_unit_zero (S := S1x128) hz2, View.ld_unit_zero (S := S128x1) hz2, View.ld_unit_zero (S := S128x10) hz2, View.ld_unit_zero (S := S1x10) hz2]
  iexists _; isplitr; swap; · iexact HS0
  ipureintro
  rw [View.read_writes_eq_canon _ _ _ (View.cover_of_tiledL _ S128x128.size (by sl_kernel_rfl))]
  sl_unfold_words
  rw [View.canon_unit_zero (S := S128x128) hz2]
  simp only [View.readAt_eq_ld, Memref.IsWhole.read_unread, View.ld_unit_zero (S := S2000x128) hz2, View.ld_unit_zero (S := S2000x1) hz2, View.ld_unit_zero (S := S128x128) hz2,
    View.ld_unit_zero (S := S1x128) hz2, View.ld_unit_zero (S := S128x1) hz2, View.ld_unit_zero (S := S128x10) hz2, View.ld_unit_zero (S := S1x10) hz2]

end Cert.Kernel.Reg

end
-- ==== Proof.KbRegion2.lean ====
import proofs.«424841_j16192026706591_2_alg».proof.Proof.KbRegion2Run

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev args2 (t : Fin cfg2.N) : Args2 :=
  ⟨grid2.coords t, win2_0.stage (cfg2.slots t 0), hstage2_0 ((cfg2.slots t 0).cast nbuf2_0), win2_1.stage (cfg2.slots t 1), hstage2_1 ((cfg2.slots t 1).cast nbuf2_1), win2_2.stage (cfg2.slots t 2), hstage2_2 ((cfg2.slots t 2).cast nbuf2_2), win2_3.stage (cfg2.slots t 3), hstage2_3 ((cfg2.slots t 3).cast nbuf2_3), win2_4.stage (cfg2.slots t 4), hstage2_4 ((cfg2.slots t 4).cast nbuf2_4), win2_5.stage (cfg2.slots t 5), hstage2_5 ((cfg2.slots t 5).cast nbuf2_5), win2_6.stage (cfg2.slots t 6), hstage2_6 ((cfg2.slots t 6).cast nbuf2_6), win2_7.stage (cfg2.slots t 7), hstage2_7 ((cfg2.slots t 7).cast nbuf2_7), win2_8.stage (cfg2.slots t 8), hstage2_8 ((cfg2.slots t 8).cast nbuf2_8), win2_9.stage (cfg2.slots t 9), hstage2_9 ((cfg2.slots t 9).cast nbuf2_9), win2_10.stage (cfg2.slots t 10), hstage2_10 ((cfg2.slots t 10).cast nbuf2_10), win2_11.stage (cfg2.slots t 11), hstage2_11 ((cfg2.slots t 11).cast nbuf2_11), win2_12.stage (cfg2.slots t 12), hstage2_12 ((cfg2.slots t 12).cast nbuf2_12), Memref.whole cc2_scratch0, Memref.isWhole_whole _⟩

abbrev blks2 (c : Dev nD) (t : Fin cfg2.N) : Ins2 F := ⟨iblk2 V c 0 t, iblk2 V c 1 t, iblk2 V c 2 t, iblk2 V c 3 t, iblk2 V c 4 t, iblk2 V c 5 t, iblk2 V c 6 t, iblk2 V c 7 t, iblk2 V c 8 t, iblk2 V c 9 t, iblk2 V c 10 t, iblk2 V c 11 t⟩

def outsAt2 (c : Dev nD) : (n : ℕ) → n < cfg2.N → Vec F S128x10 .f32 × Vec F S128x128 .f32
  | 0, hn => (head2 (blks2 V c ⟨0, hn⟩) (upd2 (blks2 V c ⟨0, hn⟩) (k2_pay3 (F := F))), upd2 (blks2 V c ⟨0, hn⟩) (k2_pay3 (F := F)))
  | n + 1, hn => (head2 (blks2 V c ⟨n + 1, hn⟩) (upd2 (blks2 V c ⟨n + 1, hn⟩) (outsAt2 c n (Nat.lt_of_succ_lt hn)).2),
      upd2 (blks2 V c ⟨n + 1, hn⟩) (outsAt2 c n (Nat.lt_of_succ_lt hn)).2)

theorem outs2_zero (c : Dev nD) (t : Fin cfg2.N) (h0 : t.val = 0) : (outsAt2 V c t.val t.isLt).2 = upd2 (blks2 V c t) (k2_pay3 (F := F)) := by
  obtain ⟨n, hn⟩ := t
  cases n with
  | zero => rfl
  | succ n => exact absurd h0 (Nat.succ_ne_zero n)

theorem outs2_pos (c : Dev nD) (t : Fin cfg2.N) (h0 : ¬t.val = 0) :
    (outsAt2 V c t.val t.isLt).2 = upd2 (blks2 V c t) (outsAt2 V c (t.val - 1) (Nat.lt_of_le_of_lt (Nat.sub_le _ _) t.isLt)).2 := by
  obtain ⟨n, hn⟩ := t
  cases n with
  | zero => exact absurd rfl h0
  | succ n => rfl

theorem outs2_fst (c : Dev nD) (t : Fin cfg2.N) : (outsAt2 V c t.val t.isLt).1 = head2 (blks2 V c t) (outsAt2 V c t.val t.isLt).2 := by
  obtain ⟨n, hn⟩ := t
  cases n <;> rfl

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_12 (c : Dev nD) (t : Fin cfg2.N) : (dat2 V c).after 12 t = (outsAt2 V c t.val t.isLt).1 := by dsimp only [dat2]

theorem before2 (c : Dev nD) (t : Fin cfg2.N) : ∀ w : Fin cfg2.W, w.val < 12 → ∀ d, (dat2 V c).before w t d = (dat2 V c).after w t
  | 0, _, d | 1, _, d | 2, _, d | 3, _, d | 4, _, d | 5, _, d | 6, _, d | 7, _, d | 8, _, d | 9, _, d | 10, _, d | 11, _, d =>
    ((dat2 V c).before_in_eq_fetched _ rfl (fun _ => rfl) (fun _ _ _ => rfl) (fun _ => rfl) t d).trans rfl
  | 12, h, _ => absurd h (by decide)

theorem Phi2_succ (c : Dev nD) (t : Fin cfg2.N) :
    (dat2 V c).Φ t.succ = iprop(iprop(owns (c : Thread nD τ) scM2_0 fullShare (outsAt2 V c t.val t.isLt).2 ∗ rest2 (F := F) c) ∗ (∃ r, prngReg c r)) := rfl

theorem leaves2_live (c : Dev nD) (t : Fin cfg2.N) (w : Fin cfg2.W) (h : cfg2.idle w (grid2.coords t) = false) :
    (dat2 V c).leavesExact w t = owns (c : Thread nD τ) ((cfg2.win w).stage (cfg2.slots t w)) fullShare ((dat2 V c).after w t) := by
  unfold Dat.leavesExact; rw [h]

theorem leaves2_in (c : Dev nD) (t : Fin cfg2.N) (w : Fin cfg2.W) (hw : w.val < 12) :
    (dat2 V c).leavesExact w t = owns (c : Thread nD τ) ((cfg2.win w).stage (cfg2.slots t w)) fullShare ((dat2 V c).after w t) :=
  leaves2_live V c t w (liveAt2_in w hw t)

-- The body obligation at point `t`.
def Body2 (c : Dev nD) (t : Fin cfg2.N) : Prop :=
  iprop((dat2 V c).Φ t.castSucc ∗ (dat2 V c).owesAt () t.castSucc
      ∗ bigSep Finset.univ fun w : Fin cfg2.W => iprop(∃ d, owns (c : Thread nD τ) ((cfg2.win w).stage (cfg2.slots t w)) fullShare ((dat2 V c).before w t d)))
    ⊢ wp frame (wpE (defs₀ (F := F)) Variants.none c none) Set.univ (args2 t).body fun _ =>
      iprop((dat2 V c).Φ t.succ ∗ (dat2 V c).owesAt () t.succ ∗ bigSep Finset.univ fun w : Fin cfg2.W => (dat2 V c).leavesExact w t)

-- The body obligation from a triple: the inputs are kept, the invariant lends the scratch as `S` and takes it back at `X`, `O` and `O'` are the output window before and after.
theorem body_of_run2 (c : Dev nD) (t : Fin cfg2.N) {α : Type} {O O' : α → sProp 𝕄} {S : sProp 𝕄} {X : Vec F S128x128 .f32}
    (run : ∀ a, Runs2 c (args2 t) (blks2 V c t) iprop(O a ∗ S) iprop(O' a ∗ owns (c : Thread nD τ) scM2_0 fullShare X))
    (hv : (outsAt2 V c t.val t.isLt).2 = X)
    (hS : (dat2 V c).Φ t.castSucc ⊢ iprop(iprop(S ∗ rest2 (F := F) c) ∗ ∃ r, prngReg c r))
    (hO : iprop(∃ d, owns (c : Thread nD τ) ((cfg2.win 12).stage (cfg2.slots t 12)) fullShare ((dat2 V c).before 12 t d)) ⊢ iprop(∃ a, O a))
    (hO' : ∀ a, O' a ⊢ (dat2 V c).leavesExact 12 t) : Body2 V c t := by
  unfold Body2
  rw [bigSep_W2, bigSep_W2]
  simp (disch := decide) only [before2 V c t, leaves2_in V c t]
  rw [Phi2_succ, hv, show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  ihave HS := hS $$ HΦ
  icases HS with ⟨⟨HS, HR⟩, Hg⟩
  ihave HO := hO $$ H12
  icases HO with ⟨%a, HO⟩
  iapply (run a Set.univ _)
  isplitl [H0 H1 H2 H3 H4 H5 H6 H7 H8 H9 H10 H11]
  · unfold Args2.ins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HO HS]
  · isplitl [HO]; · iexact HO
    iexact HS
  iintro ⟨Hins, HO', HS⟩
  unfold Args2.ins
  icases Hins with ⟨H0, H1, H2, H3, H4, H5, H6, H7, H8, H9, H10, H11⟩
  isplitl [HS HR Hg]
  · isplitl [HS HR]
    · isplitl [HS]
      · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply hO' a; iexact HO'

theorem sound_body2 (c : Dev nD) (t : Fin cfg2.N) : Body2 V c t := by
  have hN : t.val < 25 := lt_of_lt_of_eq t.isLt (show cfg2.N = 25 from N_2)
  by_cases h1 : t.val = 24
  · have h0 : ¬t.val = 0 := by omega
    have hc1 := (hcond2_1 t).mpr h1
    refine body_of_run2 V c t (fun _ : Unit => kernelRun2_C c (args2 t) (fun h => h0 ((hcond2_0 t).mp h)) hc1 (blks2 V c t) _)
      (outs2_pos V c t h0) (Entails.of_eq ((PhiS2_castSucc V c t).trans (PhiS2_pos V c _ _ h0))) ?_ fun _ => ?_
    · iintro ⟨%d, H⟩; iexists (); iexists _; iexact H
    · rw [leaves2_live V c t 12 (liveAt2_12 t hc1), after2_12, outs2_fst, outs2_pos V c t h0]
  · have hc1 : ¬cond2_1 (grid2.coords t) := fun h => h1 ((hcond2_1 t).mp h)
    have hO' : ∀ d, owns (c : Thread nD τ) (args2 t).m13 fullShare ((dat2 V c).before 12 t d) ⊢ (dat2 V c).leavesExact 12 t := fun d => by
      rw [Dat.leavesExact_idle (dat2 V c) 12 t (idleAt2_12 t hc1) (noFlush2_12 t hc1)]; iintro H; iexists d; iexact H
    by_cases h0 : t.val = 0
    · exact body_of_run2 V c t (fun d => kernelRun2_A c (args2 t) ((hcond2_0 t).mpr h0) hc1 (blks2 V c t) ((dat2 V c).before 12 t d))
        (outs2_zero V c t h0) (Entails.of_eq ((PhiS2_castSucc V c t).trans ((PhiS2_zero V c _ _ h0).trans (PhiA2_eq c)))) (Entails.refl _) hO'
    · exact body_of_run2 V c t (fun d => kernelRun2_B c (args2 t) (fun h => h0 ((hcond2_0 t).mp h)) hc1 (blks2 V c t) _ ((dat2 V c).before 12 t d))
        (outs2_pos V c t h0) (Entails.of_eq ((PhiS2_castSucc V c t).trans (PhiS2_pos V c _ _ h0))) (Entails.refl _) hO'

theorem body_obligation2 (c : Dev nD) : BodyObligation (dat2 (F := F) V c) (defs₀ (F := F)) Variants.none () Set.univ := fun t =>
  sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c cfg2.N (Nat.le_refl _) from rfl,
    PhiS2_pos V c _ _ (by have : cfg2.N = 25 := N_2; omega), PhiA2_eq]
  iintro ⟨⟨HS0, HR⟩, Hg⟩
  isplitl [HS0 HR]
  · isplitl [HS0]
    · iexists _; iexact HS0
    iexact HR
  iexact Hg

end Cert.Kernel.Reg

end
-- ==== Proof.KbSegs.lean ====
import proofs.«424841_j16192026706591_2_alg».proof.Proof.KbRegion0
import proofs.«424841_j16192026706591_2_alg».proof.Proof.KbRegion1
import proofs.«424841_j16192026706591_2_alg».proof.Proof.KbRegion2
import proofs.«424841_j16192026706591_2_alg».proof.Proof.Gen.Kernel.Regions

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

abbrev En1 (c : Dev nD) (b : Ref sig .tc) : Buf (Elt F) ((c : Thread nD τ).loc b) := V1 m c b
abbrev En3 (c : Dev nD) (b : Ref sig .tc) : Buf (Elt F) ((c : Thread nD τ).loc b) := V3 m outs c b
abbrev En5 (c : Dev nD) (b : Ref sig .tc) : Buf (Elt F) ((c : Thread nD τ).loc b) := V5 m outs c b

def pdats : (p : Fin 3) → (c : Dev nD) → Dat τ (Elt F) Unit ℕ (UR sig nD τ) ℕ (cfgs p) c
  | ⟨0, _⟩ => fun c => dat0 (En1 m) c
  | ⟨1, _⟩ => fun c => dat1 (En3 m outs) c
  | ⟨2, _⟩ => fun c => dat2 (En5 m outs) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev ER : Fin 4 → Dev nD → sProp 𝕄 := fun _ c => R c

structure OutsOk : Prop where
  h0 : ∀ c, (dat0 (En1 m) c).arrAt 6 cfg0.N = V2 m outs c main_v34
  h1 : ∀ c, (dat1 (En3 m outs) c).arrAt 6 cfg1.N = V4 m outs c main_v46
  h2 : ∀ c, (dat2 (En5 m outs) c).arrAt 12 cfg2.N = V6 m outs c main_v60

set_option backward.isDefEq.respectTransparency.types false in
/-- The three regions at once: the segment between two valuations that differ at the region's one output array `o` only. -/
def mkReg (p : Fin 3) (lf : Pipeline.LaunchFacts (nD := nD) (τ := τ) cfgs p) (o : Fin (cfgs p).W)
    (hio : ∀ w, w ≠ o → ((cfgs p).win w).isOut = false) (Vin Vout : Dev nD → Valuation τ sig (Elt F))
    (hA : ∀ c w, (pdats m outs p c).A w = Vin c (Pipeline.arrRef (cfgs p).spec w))
    (hq : ∀ c w, (pdats m outs p c).q w = fullShare) (howed : ∀ c t, (pdats m outs p c).owed t = 0)
    (hrec : ∀ c, (pdats m outs p c).recorded 0 = Set.univ)
    (hbody : ∀ c, BodyObligation (pdats m outs p c) (defs₀ (F := F)) 𝒱₀ () Set.univ)
    (hin : ∀ c, Pipeline.ΦA (cfgs p).spec c ⊢ (pdats m outs p c).Φ 0)
    (hout : ∀ c, (pdats m outs p c).Φ (Fin.last (cfgs p).N) ⊢ Pipeline.ΦA (cfgs p).spec c)
    (hO : ∀ c, (pdats m outs p c).arrAt o (cfgs p).N = Vout c (Pipeline.arrRef (cfgs p).spec o))
    (hV : ∀ c (b : Ref sig .tc), b ≠ Pipeline.arrRef (cfgs p).spec o → Vout c b = Vin c b) :
    RegionSeg (pcfgs (F := F)) adm (pdats m outs) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm (pdats m outs) lf.win lf.arr_whole c
      ((pdats m outs p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed, hrec]
      icases HO with ⟨%W, HO⟩; iexists W; isplitr; · ipureintro; exact fun _ _ => Or.inl trivial
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m outs) ((pdats m outs p c).share_full (hq c))
      (fun b => Vin c b) (fun b => Vout c b) ((pdats m outs p c).arrAt · (cfgs p).N)
      (fun w => if h : w = o then h ▸ hO c else
        (((pdats m outs p c).arrAt_in w (hio w h) _).trans (hA c w)).trans (hV c _ fun e => h (lf.win.arr_inj e)).symm)
      (fun b hb => hV c b fun e => hb (e ▸ Finset.mem_image_of_mem _ (Finset.mem_univ o)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

def reg0 (hok : OutsOk m outs) : RegionSeg (pcfgs (F := F)) adm (pdats m outs) () defs₀ 𝒱₀ L lv 0 :=
  mkReg m outs 0 launch0 6 (by decide) (V1 m) (V2 m outs) (fun _ _ => rfl) (fun _ _ => rfl) (fun _ _ => rfl) (fun _ => rfl)
    (body_obligation0 (En1 m)) (fun _ => .rfl) (fun _ => .rfl) hok.h0 fun c b hb => V2_of m outs c b fun h => hb (List.mem_singleton.mp h)

def reg1 (hok : OutsOk m outs) : RegionSeg (pcfgs (F := F)) adm (pdats m outs) () defs₀ 𝒱₀ L lv 1 :=
  mkReg m outs 1 launch1 6 (by decide) (V3 m outs) (V4 m outs) (fun _ _ => rfl) (fun _ _ => rfl) (fun _ _ => rfl) (fun _ => rfl)
    (body_obligation1 (En3 m outs)) (fun _ => .rfl) (fun _ => .rfl) hok.h1 fun c b hb => V4_of m outs c b fun h => hb (List.mem_singleton.mp h)

def reg2 (hok : OutsOk m outs) : RegionSeg (pcfgs (F := F)) adm (pdats m outs) () defs₀ 𝒱₀ L lv 2 :=
  mkReg m outs 2 launch2 12 (by decide) (V5 m outs) (V6 m outs) (fun _ _ => rfl) (fun _ _ => rfl) (fun _ _ => rfl) (fun _ => rfl)
    (body_obligation2 (En5 m outs)) (hin2 (En5 m outs)) (hout2 (En5 m outs)) hok.h2 fun c b hb => V6_of m outs c b fun h => hb (List.mem_singleton.mp h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The six segments chained: termination without fault, and `V6` read back from the final memory. -/
theorem run_all (hok : OutsOk m outs) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = V6 m outs c b) := by
  refine Pipeline.θ_run_regions_kit_dev (pcfgs (F := F)) adm (pdats m outs) () cellOf_inj emb₁ defs₀ 𝒱₀ L lv m ρ main
    (segs m outs 𝒱₀ L lv (ER (F := F)) () (pdats m outs) (reg0 m outs hok) (reg1 m outs hok) (reg2 m outs hok))
    (fun c Q => by
      rewrite [main_chain c, Seg.run_eq_chain]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V6 m outs c) ∗ ∃ r, prngReg c r))
    (hch := fun c => ⟨.rfl, .rfl, .rfl, .rfl, .rfl, .rfl, sep_assoc.2⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m outs c b)
    (hfin := fun c s' => by
      iintro ⟨⟨Hh, -⟩, HSI⟩
      unfold StableHlo.held
      imodintro
      iapply (pointsTo_read_all (Pipeline.ucRefs τ sig) (fun b => (((c : Thread nD τ)).1, b)) (V6 m outs c) s')
      isplitl [Hh] <;> iassumption)
    (hQ := fun s h => h)

end Cert.Kernel.Reg

end
-- ==== Proof.KbTop.lean ====
import proofs.«424841_j16192026706591_2_alg».proof.Proof.KbSegs

noncomputable section

namespace Cert.Kernel.Reg

open Cert.Kernel Cert.Kernel.Gen
open Idealize.ShloMosaic Idealize.ShloMosaic.TcCoe

variable {F : FTy → Type} [FloatOps F]

variable (m : (ℓ : Loc nD τ sig) → Buf (Elt F) ℓ)

/-- `o` with the contents of `r` replaced by `x`. -/
def setOut (o : Outs (F := F)) (r : Ref sig .tc) (x : (c : Dev nD) → Buf (Elt F) ((c : Thread nD τ).loc r)) : Outs (F := F) :=
  fun j r' c => if h : r' = r then h ▸ x c else o j r' c

theorem setOut_same (o : Outs (F := F)) (r : Ref sig .tc) (x : (c : Dev nD) → Buf (Elt F) ((c : Thread nD τ).loc r)) (j : ℕ) (c : Dev nD) :
    setOut o r x j r c = x c := dif_pos rfl

theorem setOut_ne (o : Outs (F := F)) (r : Ref sig .tc) (x : (c : Dev nD) → Buf (Elt F) ((c : Thread nD τ).loc r)) {r' : Ref sig .tc} (h : r' ≠ r)
    (j : ℕ) (c : Dev nD) : setOut o r x j r' c = o j r' c := dif_neg h

def outs1 : Outs (F := F) := setOut (fun _ _ _ _ => Classical.arbitrary _) main_v34 fun c => (dat0 (En1 m) c).arrAt 6 cfg0.N
def outs2 : Outs (F := F) := setOut (outs1 m) main_v46 fun c => (dat1 (En3 m (outs1 m)) c).arrAt 6 cfg1.N
def outs3 : Outs (F := F) := setOut (outs2 m) main_v60 fun c => (dat2 (En5 m (outs2 m)) c).arrAt 12 cfg2.N

theorem outs1_v34 (c : Dev nD) : outs1 m 2 main_v34 c = (dat0 (En1 m) c).arrAt 6 cfg0.N := setOut_same ..
theorem outs2_v46 (c : Dev nD) : outs2 m 4 main_v46 c = (dat1 (En3 m (outs1 m)) c).arrAt 6 cfg1.N := setOut_same ..
theorem outs2_v34 (c : Dev nD) : outs2 m 2 main_v34 c = outs1 m 2 main_v34 c := setOut_ne _ _ _ (by decide) _ _
theorem outs3_v34 (c : Dev nD) : outs3 m 2 main_v34 c = outs1 m 2 main_v34 c := (setOut_ne _ _ _ (by decide) _ _).trans (outs2_v34 m c)
theorem outs3_v46 (c : Dev nD) : outs3 m 4 main_v46 c = outs2 m 4 main_v46 c := setOut_ne _ _ _ (by decide) _ _

/-- `V3 m o` reads `o` at the first region's output only, `V5 m o` at the first two regions' outputs only. -/
theorem V3_congr (o o' : Outs (F := F)) (c : Dev nD) (h : o 2 main_v34 c = o' 2 main_v34 c) : V3 m o c = V3 m o' c :=
  congrArg (fun x => StableHlo.after hostOps1 (Function.update (V1 m c) _ x)) h
theorem V5_congr (o o' : Outs (F := F)) (c : Dev nD) (h : o 2 main_v34 c = o' 2 main_v34 c) (h' : o 4 main_v46 c = o' 4 main_v46 c) :
    V5 m o c = V5 m o' c := by
  unfold V5 V4; rw [V3_congr m o o' c h, h']

theorem V2_at (o : Outs (F := F)) (c : Dev nD) : V2 m o c main_v34 = o 2 main_v34 c := Function.update_self ..
theorem V4_at (o : Outs (F := F)) (c : Dev nD) : V4 m o c main_v46 = o 4 main_v46 c := Function.update_self ..
theorem V6_at (o : Outs (F := F)) (c : Dev nD) : V6 m o c main_v60 = o 6 main_v60 c := Function.update_self ..

theorem En3_outs3 : En3 m (outs3 m) = En3 m (outs1 m) :=
  funext fun c => funext fun b => congrFun (V3_congr m _ _ c (outs3_v34 m c)) b
theorem En5_outs3 : En5 m (outs3 m) = En5 m (outs2 m) :=
  funext fun c => funext fun b => congrFun (V5_congr m _ _ c ((outs3_v34 m c).trans (outs2_v34 m c).symm) (outs3_v46 m c)) b

theorem outsOk : OutsOk m (outs3 m) where
  h0 c := ((V2_at m _ c).trans ((outs3_v34 m c).trans (outs1_v34 m c))).symm
  h1 c := by rw [En3_outs3 m]; exact ((V4_at m _ c).trans ((outs3_v46 m c).trans (outs2_v46 m c))).symm
  h2 c := by rw [En5_outs3 m]; exact ((V6_at m (outs3 m) c).trans (setOut_same ..)).symm

def result (c : Dev nD) : Buf (Elt F) ((c.tc : Thread nD τ).loc main_v60) := (dat2 (En5 m (outs2 m)) c).arrAt 12 cfg2.N

/-- Termination without fault, with the final contents of the result and of the sixteen arguments. -/
theorem run_full (ρ : Dev nD → PrngReg) :
    θ_run defs (onTc (τ := τ) (main (F := F))) ⟨m, fun _ => 0, ρ⟩ (fun r => ∀ c : Dev nD,
      r.2.mem ((c.tc : Thread nD τ).loc main_v60) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    have a (b : Ref sig .tc) (hb : ¬ (Proc.devRef .tc b : DevRef τ sig).isScoped) {x} (e : V6 m (outs3 m) c b = x) :
        r.2.mem ((c.tc : Thread nD τ).loc b) = x := (h c _ (mem_uc b hb)).trans e
    ⟨a main_v60 (by decide) ((V6_at m _ c).trans (setOut_same ..)),
     a main_arg0 (by decide) (V6_main_arg0 m _ c),
     a main_arg1 (by decide) (V6_main_arg1 m _ c),
     a main_arg2 (by decide) (V6_main_arg2 m _ c),
     a main_arg3 (by decide) (V6_main_arg3 m _ c),
     a main_arg4 (by decide) (V6_main_arg4 m _ c),
     a main_arg5 (by decide) (V6_main_arg5 m _ c),
     a main_arg6 (by decide) (V6_main_arg6 m _ c),
     a main_arg7 (by decide) (V6_main_arg7 m _ c),
     a main_arg8 (by decide) (V6_main_arg8 m _ c),
     a main_arg9 (by decide) (V6_main_arg9 m _ c),
     a main_arg10 (by decide) (V6_main_arg10 m _ c),
     a main_arg11 (by decide) (V6_main_arg11 m _ c),
     a main_arg12 (by decide) (V6_main_arg12 m _ c),
     a main_arg13 (by decide) (V6_main_arg13 m _ c),
     a main_arg14 (by decide) (V6_main_arg14 m _ c),
     a main_arg15 (by decide) (V6_main_arg15 m _ c)⟩)
    (run_all m (outs3 m) (outsOk m) ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_full m ρ)

end Cert.Kernel.Reg

end
-- ==== Proof.KiRegion0.lean ====
import proofs.«424841_j16192026706591_2_alg».proof.Proof.Gen.KernelIdeal.Launch
import proofs.«424841_j16192026706591_2_alg».proof.Proof.Gen.KernelIdeal.Skeleton
import proofs.«424841_j16192026706591_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_rows : Rect S5000x128 := Rect.unit (s := S5000x128) ![0, 0] S5000x128.size inb_S5000x128_S5000x128_0_0
abbrev r0_col : Rect S5000x1 := Rect.unit (s := S5000x1) ![0, 0] S5000x1.size inb_S5000x1_S5000x1_0_0
abbrev r0_mat : Rect S128x128 := Rect.unit (s := S128x128) ![0, 0] S128x128.size inb_S128x128_S128x128_0_0
abbrev r0_row : Rect S1x128 := Rect.unit (s := S1x128) ![0, 0] S1x128.size inb_S1x128_S1x128_0_0

def out0_6 (x0 : Vec F S5000x128 .f32) (x1 : Vec F S5000x128 .f32) (x2 : Vec F S5000x1 .f32) (x3 : Vec F S128x128 .f32)
    (x4 : Vec F S1x128 .f32) (x5 : Vec F S128x128 .f32) : Vec F S5000x128 .f32 :=
  View.canon [⟨r0_rows, k0_pay1 (View.ld x0 r0_rows) (View.ld x2 r0_col) (View.ld x1 r0_rows) (View.ld x3 r0_mat) (View.ld x5 r0_mat) (View.ld x4 r0_row)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) :
    (dat0 V c).after 6 t = out0_6 (iblk0 V c 0 t) (iblk0 V c 1 t) (iblk0 V c 2 t) (iblk0 V c 3 t) (iblk0 V c 4 t) (iblk0 V c 5 t) := by dsimp only [dat0]

/-- Both sides are the window's block of the entry array. -/
theorem before0 (c : Dev nD) (t : Fin cfg0.N) : ∀ w : Fin cfg0.W, w.val < 6 → ∀ d, (dat0 V c).before w t d = (dat0 V c).after w t
  | 0, _, d | 1, _, d | 2, _, d | 3, _, d | 4, _, d | 5, _, d =>
    ((dat0 V c).before_in_eq_fetched _ rfl (fun _ => rfl) (fun _ _ _ => rfl) (fun _ => rfl) t d).trans rfl
  | 6, h, _ => absurd h (by decide)

/-- At every point the body reads its six input blocks whole and overwrites the output block with the layer's value on them. -/
theorem body_obligation0 (c : Dev nD) : BodyObligation (dat0 (F := F) V c) (defs₀ (F := F)) Variants.none () Set.univ := fun t => by
  rw [bigSep_W0, bigSep_W0]
  simp (disch := decide) only [before0 V c t]
  dsimp only [dat0, Dat.owesAt, Dat.bound]
  show _ ⊢ wp frame _ _ (bodyAt0 t) _
  unfold bodyAt0
  generalize iblk0 V c 0 t = x0, iblk0 V c 1 t = x1, iblk0 V c 2 t = x2, iblk0 V c 3 t = x3, iblk0 V c 4 t = x4, iblk0 V c 5 t = x5
  simp only [cc0__sage_layer_kernel_eq_skeleton]; unfold cc0__sage_layer_kernel_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, -, H6⟩⟩
  subst hf0 hf1 hf2 hf3 hf4 hf5
  sl_exec
  sl_step
  iframe HΦ Ho
  isplitl [H0]; · iexists _; iframe H0; ipureintro; rfl
  isplitl [H1]; · iexists _; iframe H1; ipureintro; rfl
  isplitl [H2]; · iexists _; iframe H2; ipureintro; rfl
  isplitl [H3]; · iexists _; iframe H3; ipureintro; rfl
  isplitl [H4]; · iexists _; iframe H4; ipureintro; rfl
  isplitl [H5]; · iexists _; iframe H5; ipureintro; rfl
  iexists _; iframe H6; ipureintro
  exact View.read_writes_eq_canon _ _ _ (View.cover_of_tiled _ S5000x128.size rfl)

end Cert.KernelIdeal.Reg

end
-- ==== Proof.KiRegion1.lean ====
import proofs.«424841_j16192026706591_2_alg».proof.Proof.Gen.KernelIdeal.Launch
import proofs.«424841_j16192026706591_2_alg».proof.Proof.Gen.KernelIdeal.Skeleton
import proofs.«424841_j16192026706591_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_rows : Rect S5000x128 := Rect.unit (s := S5000x128) ![0, 0] S5000x128.size inb_S5000x128_S5000x128_0_0
abbrev r1_col : Rect S5000x1 := Rect.unit (s := S5000x1) ![0, 0] S5000x1.size inb_S5000x1_S5000x1_0_0
abbrev r1_mat : Rect S128x128 := Rect.unit (s := S128x128) ![0, 0] S128x128.size inb_S128x128_S128x128_0_0
abbrev r1_row : Rect S1x128 := Rect.unit (s := S1x128) ![0, 0] S1x128.size inb_S1x128_S1x128_0_0

def out1_6 (x0 : Vec F S5000x128 .f32) (x1 : Vec F S5000x128 .f32) (x2 : Vec F S5000x1 .f32) (x3 : Vec F S128x128 .f32)
    (x4 : Vec F S1x128 .f32) (x5 : Vec F S128x128 .f32) : Vec F S5000x128 .f32 :=
  View.canon [⟨r1_rows, k1_pay1 (View.ld x0 r1_rows) (View.ld x2 r1_col) (View.ld x1 r1_rows) (View.ld x3 r1_mat) (View.ld x5 r1_mat) (View.ld x4 r1_row)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

/-- Both sides are the window's block of the entry array. -/
theorem before1 (c : Dev nD) (t : Fin cfg1.N) : ∀ w : Fin cfg1.W, w.val < 6 → ∀ d, (dat1 V c).before w t d = (dat1 V c).after w t
  | 0, _, d | 1, _, d | 2, _, d | 3, _, d | 4, _, d | 5, _, d =>
    ((dat1 V c).before_in_eq_fetched _ rfl (fun _ => rfl) (fun _ _ _ => rfl) (fun _ => rfl) t d).trans rfl
  | 6, h, _ => absurd h (by decide)

/-- At every point the body reads its six input blocks whole and overwrites the output block with the layer's value on them. -/
theorem body_obligation1 (c : Dev nD) : BodyObligation (dat1 (F := F) V c) (defs₀ (F := F)) Variants.none () Set.univ := fun t => by
  rw [bigSep_W1, bigSep_W1]
  simp (disch := decide) only [before1 V c t]
  dsimp only [dat1, Dat.owesAt, Dat.bound]
  show _ ⊢ wp frame _ _ (bodyAt1 t) _
  unfold bodyAt1
  generalize iblk1 V c 0 t = x0, iblk1 V c 1 t = x1, iblk1 V c 2 t = x2, iblk1 V c 3 t = x3, iblk1 V c 4 t = x4, iblk1 V c 5 t = x5
  simp only [cc1__sage_layer_kernel_eq_skeleton]; unfold cc1__sage_layer_kernel_skel
  unfold owns
  iintro ⟨HΦ, Ho, ⟨%_, %f0, %hf0, H0⟩, ⟨%_, %f1, %hf1, H1⟩, ⟨%_, %f2, %hf2, H2⟩, ⟨%_, %f3, %hf3, H3⟩, ⟨%_, %f4, %hf4, H4⟩, ⟨%_, %f5, %hf5, H5⟩, ⟨%_, %f6, -, H6⟩⟩
  subst hf0 hf1 hf2 hf3 hf4 hf5
  sl_exec
  sl_step
  iframe HΦ Ho
  isplitl [H0]; · iexists _; iframe H0; ipureintro; rfl
  isplitl [H1]; · iexists _; iframe H1; ipureintro; rfl
  isplitl [H2]; · iexists _; iframe H2; ipureintro; rfl
  isplitl [H3]; · iexists _; iframe H3; ipureintro; rfl
  isplitl [H4]; · iexists _; iframe H4; ipureintro; rfl
  isplitl [H5]; · iexists _; iframe H5; ipureintro; rfl
  iexists _; iframe H6; ipureintro
  exact View.read_writes_eq_canon _ _ _ (View.cover_of_tiled _ S5000x128.size rfl)

end Cert.KernelIdeal.Reg

end
-- ==== Proof.KiRegion2Run.lean ====
import proofs.«424841_j16192026706591_2_alg».proof.Proof.Gen.KernelIdeal.Launch
import proofs.«424841_j16192026706591_2_alg».proof.Proof.Gen.KernelIdeal.Skeleton
import proofs.«424841_j16192026706591_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1
theorem hcond2_1 : ∀ t : Fin cfg2.N, cond2_1 (grid2.coords t) ↔ t.val = 24 :=
  (by decide +kernel : ∀ t : Fin grid2.N, cond2_1 (grid2.coords t) ↔ t.val = 24)

theorem liveAt2_in (w : Fin cfg2.W) (hw : w.val < 12) : ∀ t : Fin cfg2.N, cfg2.idle w (grid2.coords t) = false := by
  revert w; decide +kernel
theorem idleAt2_12 : ∀ t : Fin cfg2.N, ¬cond2_1 (grid2.coords t) → cfg2.idle 12 (grid2.coords t) = true := by decide +kernel
theorem noFlush2_12 : ∀ t : Fin cfg2.N, ¬cond2_1 (grid2.coords t) → (cfg2.win 12).flush t = false := by decide +kernel
theorem liveAt2_12 : ∀ t : Fin cfg2.N, cond2_1 (grid2.coords t) → cfg2.idle 12 (grid2.coords t) = false := by decide +kernel

abbrev scM2_0 : Memref sig .tc .vmem S128x128 .f32 := Memref.whole cc2_scratch0

def rest2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

theorem PhiA2_eq (c : Dev nD) :
    (Pipeline.ΦA spec2 c : sProp 𝕄)
      = iprop(iprop((∃ d, owns (c : Thread nD τ) scM2_0 fullShare d) ∗ rest2 (F := F) c) ∗ (∃ r, prngReg c r)) := by
  unfold Pipeline.ΦA Pipeline.scopedRest rest2
  rw [BI.bigSep_erase (i := cc2_scratch0) (by decide)]
  simp only [scM2_0, owns_whole]
  rfl

-- The body's operands: a grid point and fourteen whole memrefs.
structure Args2 where
  i : grid2.Coords
  m1 : Memref sig .tc .vmem S2000x128 .f32
  w1 : m1.IsWhole
  m2 : Memref sig .tc .vmem S2000x128 .f32
  w2 : m2.IsWhole
  m3 : Memref sig .tc .vmem S2000x1 .f32
  w3 : m3.IsWhole
  m4 : Memref sig .tc .vmem S128x128 .f32
  w4 : m4.IsWhole
  m5 : Memref sig .tc .vmem S1x128 .f32
  w5 : m5.IsWhole
  m6 : Memref sig .tc .vmem S128x128 .f32
  w6 : m6.IsWhole
  m7 : Memref sig .tc .vmem S2000x1 .i32
  w7 : m7.IsWhole
  m8 : Memref sig .tc .vmem S128x1 .f32
  w8 : m8.IsWhole
  m9 : Memref sig .tc .vmem S128x128 .f32
  w9 : m9.IsWhole
  m10 : Memref sig .tc .vmem S1x128 .f32
  w10 : m10.IsWhole
  m11 : Memref sig .tc .vmem S128x10 .f32
  w11 : m11.IsWhole
  m12 : Memref sig .tc .vmem S1x10 .f32
  w12 : m12.IsWhole
  m13 : Memref sig .tc .vmem S128x10 .f32
  w13 : m13.IsWhole
  m14 : Memref sig .tc .vmem S128x128 .f32
  w14 : m14.IsWhole

-- The contents of the twelve inputs.
structure Ins2 (F : FTy → Type) where
  x0 : Vec F S2000x128 .f32
  x1 : Vec F S2000x128 .f32
  x2 : Vec F S2000x1 .f32
  x3 : Vec F S128x128 .f32
  x4 : Vec F S1x128 .f32
  x5 : Vec F S128x128 .f32
  x6 : Vec F S2000x1 .i32
  x7 : Vec F S128x1 .f32
  x8 : Vec F S128x128 .f32
  x9 : Vec F S1x128 .f32
  x10 : Vec F S128x10 .f32
  x11 : Vec F S1x10 .f32

abbrev Args2.body (o : Args2) : Prog (TpuEff nD τ sig (Elt F) Λ₀ .tc) PUnit :=
  cc2__sage3_pool_kernel o.i o.m1 o.w1 o.m2 o.w2 o.m3 o.w3 o.m4 o.w4 o.m5 o.w5 o.m6 o.w6 o.m7 o.w7 o.m8 o.w8 o.m9 o.w9 o.m10 o.w10 o.m11 o.w11 o.m12 o.w12 o.m13 o.w13 o.m14 o.w14

-- The inputs owned at their contents.
def Args2.ins (c : Dev nD) (o : Args2) (x : Ins2 F) : sProp 𝕄 :=
  iprop(owns (c : Thread nD τ) o.m1 fullShare x.x0 ∗ owns (c : Thread nD τ) o.m2 fullShare x.x1 ∗ owns (c : Thread nD τ) o.m3 fullShare x.x2 ∗ owns (c : Thread nD τ) o.m4 fullShare x.x3 ∗ owns (c : Thread nD τ) o.m5 fullShare x.x4 ∗ owns (c : Thread nD τ) o.m6 fullShare x.x5 ∗ owns (c : Thread nD τ) o.m7 fullShare x.x6 ∗ owns (c : Thread nD τ) o.m8 fullShare x.x7 ∗ owns (c : Thread nD τ) o.m9 fullShare x.x8 ∗ owns (c : Thread nD τ) o.m10 fullShare x.x9 ∗ owns (c : Thread nD τ) o.m11 fullShare x.x10 ∗ owns (c : Thread nD τ) o.m12 fullShare x.x11)

-- A triple for the body in continuation form: the inputs are kept, `P` becomes `P'`.
abbrev Runs2 (c : Dev nD) (o : Args2) (x : Ins2 F) (P P' : sProp 𝕄) : Prop :=
  ∀ (E : Set ℕ) (K : PUnit → sProp 𝕄),
    iprop(o.ins c x ∗ P ∗ (iprop(o.ins c x ∗ P') -∗ K ⟨⟩)) ⊢ wp frame (wpE (defs₀ (F := F)) Variants.none c none) E o.body K

-- Reading through a whole memref is a bijection on contents.
theorem owns_eq_unread {sp : Space} {s : Shape} {e : EltTy} {m : Memref sig .tc sp s e} (h : m.IsWhole) (c : Dev nD) (X : Vec F s e) :
    (owns (c : Thread nD τ) m fullShare X : sProp 𝕄) = (m.view.loc (c : Thread nD τ) ↦[m.view.set]{fullShare} h.unread X) := by
  have h₁ : (owns (c : Thread nD τ) m fullShare X : sProp 𝕄) ⊢ (m.view.loc (c : Thread nD τ) ↦[m.view.set]{fullShare} h.unread X) := by
    unfold owns; iintro ⟨%f, %hf, H⟩; obtain rfl := h.eq_unread hf; iexact H
  have h₂ : (m.view.loc (c : Thread nD τ) ↦[m.view.set]{fullShare} h.unread X : sProp 𝕄) ⊢ owns (c : Thread nD τ) m fullShare X := by
    unfold owns; iintro H; iexists _; isplitr; · ipureintro; exact h.read_unread X
    iexact H
  exact BI.equiv_iff.mp ⟨h₁, h₂⟩

-- The scratch after a point, and the output block computed from it.
abbrev upd2 (x : Ins2 F) (xs : Vec F S128x128 .f32) : Vec F S128x128 .f32 := k2_pay1 (k2_pay4 x.x0 x.x2 x.x1 x.x3 x.x5 x.x4 x.x6 xs)
abbrev head2 (x : Ins2 F) (s : Vec F S128x128 .f32) : Vec F S128x10 .f32 := k2_pay2 s x.x7 x.x8 x.x9 x.x10 x.x11

private theorem hz2 : (![0, 0] : Fin 2 → ℕ) = fun _ => 0 := by funext a; fin_cases a <;> rfl

-- The body's triple where only the first condition holds.
theorem kernelRun2_A (c : Dev nD) (o : Args2) (hc0 : cond2_0 o.i) (hc1 : ¬cond2_1 o.i) (x : Ins2 F) (xi12 : Vec F S128x10 .f32) :
    Runs2 c o x iprop(owns (c : Thread nD τ) o.m13 fullShare xi12 ∗ ∃ d, owns (c : Thread nD τ) o.m14 fullShare d)
      iprop(owns (c : Thread nD τ) o.m13 fullShare xi12 ∗ owns (c : Thread nD τ) o.m14 fullShare (upd2 x (k2_pay3 (F := F)))) := by
  obtain ⟨i, arg1, harg1, arg2, harg2, arg3, harg3, arg4, harg4, arg5, harg5, arg6, harg6, arg7, harg7, arg8, harg8, arg9, harg9, arg10, harg10, arg11, harg11, arg12, harg12, arg13, harg13, arg14, harg14⟩ := o
  cases x
  intro E K
  dsimp only [Args2.body, Args2.ins, upd2, head2]
  rw [owns_eq_unread harg1, owns_eq_unread harg2, owns_eq_unread harg3, owns_eq_unread harg4, owns_eq_unread harg5, owns_eq_unread harg6, owns_eq_unread harg7, owns_eq_unread harg8, owns_eq_unread harg9, owns_eq_unread harg10, owns_eq_unread harg11, owns_eq_unread harg12, owns_eq_unread harg13]
  unfold owns
  sl_unfold [cc2__sage3_pool_kernel]
  iintro ⟨⟨H0, H1, H2, H3, H4, H5, H6, H7, H8, H9, H10, H11⟩, ⟨H12, %ds0, %fs0, -, HS0⟩, Hk⟩
  sl_exec (disch := first | exact hc0 | exact hc1)
  sl_step
  iapply Hk
  isplitl [H0 H1 H2 H3 H4 H5 H6 H7 H8 H9 H10 H11]
  · iframe
  isplitl [H12]
  · iexact H12
  iexists _; isplitr; swap; · iexact HS0
  ipureintro
  rw [View.read_writes_eq_canon _ _ _ (View.cover_of_tiledL _ S128x128.size (by sl_kernel_rfl))]
  sl_unfold_words
  rw [View.canon_cons_unit_zero (S := S128x128) hz2, View.readCov_unit_zero (S := S128x128) _ hz2]
  simp only [View.readAt_eq_ld, Memref.IsWhole.read_unread, View.ld_unit_zero (S := S2000x128) hz2, View.ld_unit_zero (S := S2000x1) hz2, View.ld_unit_zero (S := S128x128) hz2,
    View.ld_unit_zero (S := S1x128) hz2, View.ld_unit_zero (S := S128x1) hz2, View.ld_unit_zero (S := S128x10) hz2, View.ld_unit_zero (S := S1x10) hz2]

-- The body's triple where neither condition holds.
theorem kernelRun2_B (c : Dev nD) (o : Args2) (hc0 : ¬cond2_0 o.i) (hc1 : ¬cond2_1 o.i) (x : Ins2 F) (xs0 : Vec F S128x128 .f32) (xi12 : Vec F S128x10 .f32) :
    Runs2 c o x iprop(owns (c : Thread nD τ) o.m13 fullShare xi12 ∗ owns (c : Thread nD τ) o.m14 fullShare xs0)
      iprop(owns (c : Thread nD τ) o.m13 fullShare xi12 ∗ owns (c : Thread nD τ) o.m14 fullShare (upd2 x xs0)) := by
  obtain ⟨i, arg1, harg1, arg2, harg2, arg3, harg3, arg4, harg4, arg5, harg5, arg6, harg6, arg7, harg7, arg8, harg8, arg9, harg9, arg10, harg10, arg11, harg11, arg12, harg12, arg13, harg13, arg14, harg14⟩ := o
  cases x
  intro E K
  dsimp only [Args2.body, Args2.ins, upd2, head2]
  rw [owns_eq_unread harg1, owns_eq_unread harg2, owns_eq_unread harg3, owns_eq_unread harg4, owns_eq_unread harg5, owns_eq_unread harg6, owns_eq_unread harg7, owns_eq_unread harg8, owns_eq_unread harg9, owns_eq_unread harg10, owns_eq_unread harg11, owns_eq_unread harg12, owns_eq_unread harg13, owns_eq_unread harg14 c xs0]
  unfold owns
  sl_unfold [cc2__sage3_pool_kernel]
  iintro ⟨⟨H0, H1, H2, H3, H4, H5, H6, H7, H8, H9, H10, H11⟩, ⟨H12, HS0⟩, Hk⟩
  sl_exec (disch := first | exact hc0 | exact hc1)
  sl_step
  iapply Hk
  isplitl [H0 H1 H2 H3 H4 H5 H6 H7 H8 H9 H10 H11]
  · iframe
  isplitl [H12]
  · iexact H12
  iexists _; isplitr; swap; · iexact HS0
  ipureintro
  rw [View.read_writes_eq_canon _ _ _ (View.cover_of_tiledL _ S128x128.size (by sl_kernel_rfl))]
  sl_unfold_words
  rw [View.canon_unit_zero (S := S128x128) hz2]
  simp only [View.readAt_eq_ld, Memref.IsWhole.read_unread, View.ld_unit_zero (S := S2000x128) hz2, View.ld_unit_zero (S := S2000x1) hz2, View.ld_unit_zero (S := S128x128) hz2,
    View.ld_unit_zero (S := S1x128) hz2, View.ld_unit_zero (S := S128x1) hz2, View.ld_unit_zero (S := S128x10) hz2, View.ld_unit_zero (S := S1x10) hz2]

-- The body's triple where only the second condition holds.
theorem kernelRun2_C (c : Dev nD) (o : Args2) (hc0 : ¬cond2_0 o.i) (hc1 : cond2_1 o.i) (x : Ins2 F) (xs0 : Vec F S128x128 .f32) :
    Runs2 c o x iprop((∃ d, owns (c : Thread nD τ) o.m13 fullShare d) ∗ owns (c : Thread nD τ) o.m14 fullShare xs0)
      iprop(owns (c : Thread nD τ) o.m13 fullShare (head2 x (upd2 x xs0)) ∗ owns (c : Thread nD τ) o.m14 fullShare (upd2 x xs0)) := by
  obtain ⟨i, arg1, harg1, arg2, harg2, arg3, harg3, arg4, harg4, arg5, harg5, arg6, harg6, arg7, harg7, arg8, harg8, arg9, harg9, arg10, harg10, arg11, harg11, arg12, harg12, arg13, harg13, arg14, harg14⟩ := o
  cases x
  intro E K
  dsimp only [Args2.body, Args2.ins, upd2, head2]
  rw [owns_eq_unread harg1, owns_eq_unread harg2, owns_eq_unread harg3, owns_eq_unread harg4, owns_eq_unread harg5, owns_eq_unread harg6, owns_eq_unread harg7, owns_eq_unread harg8, owns_eq_unread harg9, owns_eq_unread harg10, owns_eq_unread harg11, owns_eq_unread harg12, owns_eq_unread harg14 c xs0]
  unfold owns
  sl_unfold [cc2__sage3_pool_kernel]
  iintro ⟨⟨H0, H1, H2, H3, H4, H5, H6, H7, H8, H9, H10, H11⟩, ⟨⟨%d12, %f12, -, H12⟩, HS0⟩, Hk⟩
  sl_exec (disch := first | exact hc0 | exact hc1)
  sl_step
  iapply Hk
  isplitl [H0 H1 H2 H3 H4 H5 H6 H7 H8 H9 H10 H11]
  · iframe
  isplitl [H12]
  · iexists _; isplitr; swap; · iexact H12
    ipureintro
    rw [View.read_writes_eq_canon _ _ _ (View.cover_of_tiledL _ S128x10.size (by sl_kernel_rfl))]
    sl_unfold_words
    rw [View.canon_unit_zero (S := S128x10) hz2, View.readCov_unit_zero (S := S128x128) _ hz2]
    simp only [View.readAt_eq_ld, Memref.IsWhole.read_unread, View.ld_unit_zero (S := S2000x128) hz2, View.ld_unit_zero (S := S2000x1) hz2, View.ld_unit_zero (S := S128x128) hz2,
      View.ld_unit_zero (S := S1x128) hz2, View.ld_unit_zero (S := S128x1) hz2, View.ld_unit_zero (S := S128x10) hz2, View.ld_unit_zero (S := S1x10) hz2]
  iexists _; isplitr; swap; · iexact HS0
  ipureintro
  rw [View.read_writes_eq_canon _ _ _ (View.cover_of_tiledL _ S128x128.size (by sl_kernel_rfl))]
  sl_unfold_words
  rw [View.canon_unit_zero (S := S128x128) hz2]
  simp only [View.readAt_eq_ld, Memref.IsWhole.read_unread, View.ld_unit_zero (S := S2000x128) hz2, View.ld_unit_zero (S := S2000x1) hz2, View.ld_unit_zero (S := S128x128) hz2,
    View.ld_unit_zero (S := S1x128) hz2, View.ld_unit_zero (S := S128x1) hz2, View.ld_unit_zero (S := S128x10) hz2, View.ld_unit_zero (S := S1x10) hz2]

end Cert.KernelIdeal.Reg

end
-- ==== Proof.KiRegion2.lean ====
import proofs.«424841_j16192026706591_2_alg».proof.Proof.KiRegion2Run

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev args2 (t : Fin cfg2.N) : Args2 :=
  ⟨grid2.coords t, win2_0.stage (cfg2.slots t 0), hstage2_0 ((cfg2.slots t 0).cast nbuf2_0), win2_1.stage (cfg2.slots t 1), hstage2_1 ((cfg2.slots t 1).cast nbuf2_1), win2_2.stage (cfg2.slots t 2), hstage2_2 ((cfg2.slots t 2).cast nbuf2_2), win2_3.stage (cfg2.slots t 3), hstage2_3 ((cfg2.slots t 3).cast nbuf2_3), win2_4.stage (cfg2.slots t 4), hstage2_4 ((cfg2.slots t 4).cast nbuf2_4), win2_5.stage (cfg2.slots t 5), hstage2_5 ((cfg2.slots t 5).cast nbuf2_5), win2_6.stage (cfg2.slots t 6), hstage2_6 ((cfg2.slots t 6).cast nbuf2_6), win2_7.stage (cfg2.slots t 7), hstage2_7 ((cfg2.slots t 7).cast nbuf2_7), win2_8.stage (cfg2.slots t 8), hstage2_8 ((cfg2.slots t 8).cast nbuf2_8), win2_9.stage (cfg2.slots t 9), hstage2_9 ((cfg2.slots t 9).cast nbuf2_9), win2_10.stage (cfg2.slots t 10), hstage2_10 ((cfg2.slots t 10).cast nbuf2_10), win2_11.stage (cfg2.slots t 11), hstage2_11 ((cfg2.slots t 11).cast nbuf2_11), win2_12.stage (cfg2.slots t 12), hstage2_12 ((cfg2.slots t 12).cast nbuf2_12), Memref.whole cc2_scratch0, Memref.isWhole_whole _⟩

abbrev blks2 (c : Dev nD) (t : Fin cfg2.N) : Ins2 F := ⟨iblk2 V c 0 t, iblk2 V c 1 t, iblk2 V c 2 t, iblk2 V c 3 t, iblk2 V c 4 t, iblk2 V c 5 t, iblk2 V c 6 t, iblk2 V c 7 t, iblk2 V c 8 t, iblk2 V c 9 t, iblk2 V c 10 t, iblk2 V c 11 t⟩

def outsAt2 (c : Dev nD) : (n : ℕ) → n < cfg2.N → Vec F S128x10 .f32 × Vec F S128x128 .f32
  | 0, hn => (head2 (blks2 V c ⟨0, hn⟩) (upd2 (blks2 V c ⟨0, hn⟩) (k2_pay3 (F := F))), upd2 (blks2 V c ⟨0, hn⟩) (k2_pay3 (F := F)))
  | n + 1, hn => (head2 (blks2 V c ⟨n + 1, hn⟩) (upd2 (blks2 V c ⟨n + 1, hn⟩) (outsAt2 c n (Nat.lt_of_succ_lt hn)).2),
      upd2 (blks2 V c ⟨n + 1, hn⟩) (outsAt2 c n (Nat.lt_of_succ_lt hn)).2)

theorem outs2_zero (c : Dev nD) (t : Fin cfg2.N) (h0 : t.val = 0) : (outsAt2 V c t.val t.isLt).2 = upd2 (blks2 V c t) (k2_pay3 (F := F)) := by
  obtain ⟨n, hn⟩ := t
  cases n with
  | zero => rfl
  | succ n => exact absurd h0 (Nat.succ_ne_zero n)

theorem outs2_pos (c : Dev nD) (t : Fin cfg2.N) (h0 : ¬t.val = 0) :
    (outsAt2 V c t.val t.isLt).2 = upd2 (blks2 V c t) (outsAt2 V c (t.val - 1) (Nat.lt_of_le_of_lt (Nat.sub_le _ _) t.isLt)).2 := by
  obtain ⟨n, hn⟩ := t
  cases n with
  | zero => exact absurd rfl h0
  | succ n => rfl

theorem outs2_fst (c : Dev nD) (t : Fin cfg2.N) : (outsAt2 V c t.val t.isLt).1 = head2 (blks2 V c t) (outsAt2 V c t.val t.isLt).2 := by
  obtain ⟨n, hn⟩ := t
  cases n <;> rfl

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_12 (c : Dev nD) (t : Fin cfg2.N) : (dat2 V c).after 12 t = (outsAt2 V c t.val t.isLt).1 := by dsimp only [dat2]

theorem before2 (c : Dev nD) (t : Fin cfg2.N) : ∀ w : Fin cfg2.W, w.val < 12 → ∀ d, (dat2 V c).before w t d = (dat2 V c).after w t
  | 0, _, d | 1, _, d | 2, _, d | 3, _, d | 4, _, d | 5, _, d | 6, _, d | 7, _, d | 8, _, d | 9, _, d | 10, _, d | 11, _, d =>
    ((dat2 V c).before_in_eq_fetched _ rfl (fun _ => rfl) (fun _ _ _ => rfl) (fun _ => rfl) t d).trans rfl
  | 12, h, _ => absurd h (by decide)

theorem Phi2_succ (c : Dev nD) (t : Fin cfg2.N) :
    (dat2 V c).Φ t.succ = iprop(iprop(owns (c : Thread nD τ) scM2_0 fullShare (outsAt2 V c t.val t.isLt).2 ∗ rest2 (F := F) c) ∗ (∃ r, prngReg c r)) := rfl

theorem leaves2_live (c : Dev nD) (t : Fin cfg2.N) (w : Fin cfg2.W) (h : cfg2.idle w (grid2.coords t) = false) :
    (dat2 V c).leavesExact w t = owns (c : Thread nD τ) ((cfg2.win w).stage (cfg2.slots t w)) fullShare ((dat2 V c).after w t) := by
  unfold Dat.leavesExact; rw [h]

theorem leaves2_in (c : Dev nD) (t : Fin cfg2.N) (w : Fin cfg2.W) (hw : w.val < 12) :
    (dat2 V c).leavesExact w t = owns (c : Thread nD τ) ((cfg2.win w).stage (cfg2.slots t w)) fullShare ((dat2 V c).after w t) :=
  leaves2_live V c t w (liveAt2_in w hw t)

-- The body obligation at point `t`.
def Body2 (c : Dev nD) (t : Fin cfg2.N) : Prop :=
  iprop((dat2 V c).Φ t.castSucc ∗ (dat2 V c).owesAt () t.castSucc
      ∗ bigSep Finset.univ fun w : Fin cfg2.W => iprop(∃ d, owns (c : Thread nD τ) ((cfg2.win w).stage (cfg2.slots t w)) fullShare ((dat2 V c).before w t d)))
    ⊢ wp frame (wpE (defs₀ (F := F)) Variants.none c none) Set.univ (args2 t).body fun _ =>
      iprop((dat2 V c).Φ t.succ ∗ (dat2 V c).owesAt () t.succ ∗ bigSep Finset.univ fun w : Fin cfg2.W => (dat2 V c).leavesExact w t)

-- The body obligation from a triple: the inputs are kept, the invariant lends the scratch as `S` and takes it back at `X`, `O` and `O'` are the output window before and after.
theorem body_of_run2 (c : Dev nD) (t : Fin cfg2.N) {α : Type} {O O' : α → sProp 𝕄} {S : sProp 𝕄} {X : Vec F S128x128 .f32}
    (run : ∀ a, Runs2 c (args2 t) (blks2 V c t) iprop(O a ∗ S) iprop(O' a ∗ owns (c : Thread nD τ) scM2_0 fullShare X))
    (hv : (outsAt2 V c t.val t.isLt).2 = X)
    (hS : (dat2 V c).Φ t.castSucc ⊢ iprop(iprop(S ∗ rest2 (F := F) c) ∗ ∃ r, prngReg c r))
    (hO : iprop(∃ d, owns (c : Thread nD τ) ((cfg2.win 12).stage (cfg2.slots t 12)) fullShare ((dat2 V c).before 12 t d)) ⊢ iprop(∃ a, O a))
    (hO' : ∀ a, O' a ⊢ (dat2 V c).leavesExact 12 t) : Body2 V c t := by
  unfold Body2
  rw [bigSep_W2, bigSep_W2]
  simp (disch := decide) only [before2 V c t, leaves2_in V c t]
  rw [Phi2_succ, hv, show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12⟩
  ihave HS := hS $$ HΦ
  icases HS with ⟨⟨HS, HR⟩, Hg⟩
  ihave HO := hO $$ H12
  icases HO with ⟨%a, HO⟩
  iapply (run a Set.univ _)
  isplitl [H0 H1 H2 H3 H4 H5 H6 H7 H8 H9 H10 H11]
  · unfold Args2.ins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HO HS]
  · isplitl [HO]; · iexact HO
    iexact HS
  iintro ⟨Hins, HO', HS⟩
  unfold Args2.ins
  icases Hins with ⟨H0, H1, H2, H3, H4, H5, H6, H7, H8, H9, H10, H11⟩
  isplitl [HS HR Hg]
  · isplitl [HS HR]
    · isplitl [HS]
      · iexact HS
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply hO' a; iexact HO'

theorem sound_body2 (c : Dev nD) (t : Fin cfg2.N) : Body2 V c t := by
  have hN : t.val < 25 := lt_of_lt_of_eq t.isLt (show cfg2.N = 25 from N_2)
  by_cases h1 : t.val = 24
  · have h0 : ¬t.val = 0 := by omega
    have hc1 := (hcond2_1 t).mpr h1
    refine body_of_run2 V c t (fun _ : Unit => kernelRun2_C c (args2 t) (fun h => h0 ((hcond2_0 t).mp h)) hc1 (blks2 V c t) _)
      (outs2_pos V c t h0) (Entails.of_eq ((PhiS2_castSucc V c t).trans (PhiS2_pos V c _ _ h0))) ?_ fun _ => ?_
    · iintro ⟨%d, H⟩; iexists (); iexists _; iexact H
    · rw [leaves2_live V c t 12 (liveAt2_12 t hc1), after2_12, outs2_fst, outs2_pos V c t h0]
  · have hc1 : ¬cond2_1 (grid2.coords t) := fun h => h1 ((hcond2_1 t).mp h)
    have hO' : ∀ d, owns (c : Thread nD τ) (args2 t).m13 fullShare ((dat2 V c).before 12 t d) ⊢ (dat2 V c).leavesExact 12 t := fun d => by
      rw [Dat.leavesExact_idle (dat2 V c) 12 t (idleAt2_12 t hc1) (noFlush2_12 t hc1)]; iintro H; iexists d; iexact H
    by_cases h0 : t.val = 0
    · exact body_of_run2 V c t (fun d => kernelRun2_A c (args2 t) ((hcond2_0 t).mpr h0) hc1 (blks2 V c t) ((dat2 V c).before 12 t d))
        (outs2_zero V c t h0) (Entails.of_eq ((PhiS2_castSucc V c t).trans ((PhiS2_zero V c _ _ h0).trans (PhiA2_eq c)))) (Entails.refl _) hO'
    · exact body_of_run2 V c t (fun d => kernelRun2_B c (args2 t) (fun h => h0 ((hcond2_0 t).mp h)) hc1 (blks2 V c t) _ ((dat2 V c).before 12 t d))
        (outs2_pos V c t h0) (Entails.of_eq ((PhiS2_castSucc V c t).trans (PhiS2_pos V c _ _ h0))) (Entails.refl _) hO'

theorem body_obligation2 (c : Dev nD) : BodyObligation (dat2 (F := F) V c) (defs₀ (F := F)) Variants.none () Set.univ := fun t =>
  sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 V c cfg2.N (Nat.le_refl _) from rfl,
    PhiS2_pos V c _ _ (by have : cfg2.N = 25 := N_2; omega), PhiA2_eq]
  iintro ⟨⟨HS0, HR⟩, Hg⟩
  isplitl [HS0 HR]
  · isplitl [HS0]
    · iexists _; iexact HS0
    iexact HR
  iexact Hg

end Cert.KernelIdeal.Reg

end
-- ==== Proof.KiSegs.lean ====
import proofs.«424841_j16192026706591_2_alg».proof.Proof.KiRegion0
import proofs.«424841_j16192026706591_2_alg».proof.Proof.KiRegion1
import proofs.«424841_j16192026706591_2_alg».proof.Proof.KiRegion2
import proofs.«424841_j16192026706591_2_alg».proof.Proof.Gen.KernelIdeal.Regions

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

abbrev En1 (c : Dev nD) (b : Ref sig .tc) : Buf (Elt F) ((c : Thread nD τ).loc b) := V1 m c b
abbrev En3 (c : Dev nD) (b : Ref sig .tc) : Buf (Elt F) ((c : Thread nD τ).loc b) := V3 m outs c b
abbrev En5 (c : Dev nD) (b : Ref sig .tc) : Buf (Elt F) ((c : Thread nD τ).loc b) := V5 m outs c b

def pdats : (p : Fin 3) → (c : Dev nD) → Dat τ (Elt F) Unit ℕ (UR sig nD τ) ℕ (cfgs p) c
  | ⟨0, _⟩ => fun c => dat0 (En1 m) c
  | ⟨1, _⟩ => fun c => dat1 (En3 m outs) c
  | ⟨2, _⟩ => fun c => dat2 (En5 m outs) c

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev ER : Fin 4 → Dev nD → sProp 𝕄 := fun _ c => R c

structure OutsOk : Prop where
  h0 : ∀ c, (dat0 (En1 m) c).arrAt 6 cfg0.N = V2 m outs c main_v34
  h1 : ∀ c, (dat1 (En3 m outs) c).arrAt 6 cfg1.N = V4 m outs c main_v46
  h2 : ∀ c, (dat2 (En5 m outs) c).arrAt 12 cfg2.N = V6 m outs c main_v60

set_option backward.isDefEq.respectTransparency.types false in
/-- The three regions at once: the segment between two valuations that differ at the region's one output array `o` only. -/
def mkReg (p : Fin 3) (lf : Pipeline.LaunchFacts (nD := nD) (τ := τ) cfgs p) (o : Fin (cfgs p).W)
    (hio : ∀ w, w ≠ o → ((cfgs p).win w).isOut = false) (Vin Vout : Dev nD → Valuation τ sig (Elt F))
    (hA : ∀ c w, (pdats m outs p c).A w = Vin c (Pipeline.arrRef (cfgs p).spec w))
    (hq : ∀ c w, (pdats m outs p c).q w = fullShare) (howed : ∀ c t, (pdats m outs p c).owed t = 0)
    (hrec : ∀ c, (pdats m outs p c).recorded 0 = Set.univ)
    (hbody : ∀ c, BodyObligation (pdats m outs p c) (defs₀ (F := F)) 𝒱₀ () Set.univ)
    (hin : ∀ c, Pipeline.ΦA (cfgs p).spec c ⊢ (pdats m outs p c).Φ 0)
    (hout : ∀ c, (pdats m outs p c).Φ (Fin.last (cfgs p).N) ⊢ Pipeline.ΦA (cfgs p).spec c)
    (hO : ∀ c, (pdats m outs p c).arrAt o (cfgs p).N = Vout c (Pipeline.arrRef (cfgs p).spec o))
    (hV : ∀ c (b : Ref sig .tc), b ≠ Pipeline.arrRef (cfgs p).spec o → Vout c b = Vin c b) :
    RegionSeg (pcfgs (F := F)) adm (pdats m outs) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Vin c) ∗ R c)
  post c := iprop(StableHlo.held (c : Thread nD τ) (Pipeline.ucRefs τ sig) (Vout c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm (pdats m outs) lf.win lf.arr_whole c
      ((pdats m outs p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [howed, hrec]
      icases HO with ⟨%W, HO⟩; iexists W; isplitr; · ipureintro; exact fun _ _ => Or.inl trivial
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m outs) ((pdats m outs p c).share_full (hq c))
      (fun b => Vin c b) (fun b => Vout c b) ((pdats m outs p c).arrAt · (cfgs p).N)
      (fun w => if h : w = o then h ▸ hO c else
        (((pdats m outs p c).arrAt_in w (hio w h) _).trans (hA c w)).trans (hV c _ fun e => h (lf.win.arr_inj e)).symm)
      (fun b hb => hV c b fun e => hb (e ▸ Finset.mem_image_of_mem _ (Finset.mem_univ o)))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed]
    icases HO with ⟨%W, -, HO⟩; iexists W; iexact HO

def reg0 (hok : OutsOk m outs) : RegionSeg (pcfgs (F := F)) adm (pdats m outs) () defs₀ 𝒱₀ L lv 0 :=
  mkReg m outs 0 launch0 6 (by decide) (V1 m) (V2 m outs) (fun _ _ => rfl) (fun _ _ => rfl) (fun _ _ => rfl) (fun _ => rfl)
    (body_obligation0 (En1 m)) (fun _ => .rfl) (fun _ => .rfl) hok.h0 fun c b hb => V2_of m outs c b fun h => hb (List.mem_singleton.mp h)

def reg1 (hok : OutsOk m outs) : RegionSeg (pcfgs (F := F)) adm (pdats m outs) () defs₀ 𝒱₀ L lv 1 :=
  mkReg m outs 1 launch1 6 (by decide) (V3 m outs) (V4 m outs) (fun _ _ => rfl) (fun _ _ => rfl) (fun _ _ => rfl) (fun _ => rfl)
    (body_obligation1 (En3 m outs)) (fun _ => .rfl) (fun _ => .rfl) hok.h1 fun c b hb => V4_of m outs c b fun h => hb (List.mem_singleton.mp h)

def reg2 (hok : OutsOk m outs) : RegionSeg (pcfgs (F := F)) adm (pdats m outs) () defs₀ 𝒱₀ L lv 2 :=
  mkReg m outs 2 launch2 12 (by decide) (V5 m outs) (V6 m outs) (fun _ _ => rfl) (fun _ _ => rfl) (fun _ _ => rfl) (fun _ => rfl)
    (body_obligation2 (En5 m outs)) (hin2 (En5 m outs)) (hout2 (En5 m outs)) hok.h2 fun c b hb => V6_of m outs c b fun h => hb (List.mem_singleton.mp h)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- The six segments chained: termination without fault, and `V6` read back from the final memory. -/
theorem run_all (hok : OutsOk m outs) (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = V6 m outs c b) := by
  refine Pipeline.θ_run_regions_kit_dev (pcfgs (F := F)) adm (pdats m outs) () cellOf_inj emb₁ defs₀ 𝒱₀ L lv m ρ main
    (segs m outs 𝒱₀ L lv (ER (F := F)) () (pdats m outs) (reg0 m outs hok) (reg1 m outs hok) (reg2 m outs hok))
    (fun c Q => by
      rewrite [main_chain c, Seg.run_eq_chain]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V6 m outs c) ∗ ∃ r, prngReg c r))
    (hch := fun c => ⟨.rfl, .rfl, .rfl, .rfl, .rfl, .rfl, sep_assoc.2⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V6 m outs c b)
    (hfin := fun c s' => by
      iintro ⟨⟨Hh, -⟩, HSI⟩
      unfold StableHlo.held
      imodintro
      iapply (pointsTo_read_all (Pipeline.ucRefs τ sig) (fun b => (((c : Thread nD τ)).1, b)) (V6 m outs c) s')
      isplitl [Hh] <;> iassumption)
    (hQ := fun s h => h)

end Cert.KernelIdeal.Reg

end
-- ==== Proof.KiTop.lean ====
import proofs.«424841_j16192026706591_2_alg».proof.Proof.KiSegs

noncomputable section

namespace Cert.KernelIdeal.Reg

open Cert.KernelIdeal Cert.KernelIdeal.Gen
open Idealize.ShloMosaic Idealize.ShloMosaic.TcCoe

variable {F : FTy → Type} [FloatOps F]

variable (m : (ℓ : Loc nD τ sig) → Buf (Elt F) ℓ)

/-- `o` with the contents of `r` replaced by `x`. -/
def setOut (o : Outs (F := F)) (r : Ref sig .tc) (x : (c : Dev nD) → Buf (Elt F) ((c : Thread nD τ).loc r)) : Outs (F := F) :=
  fun j r' c => if h : r' = r then h ▸ x c else o j r' c

theorem setOut_same (o : Outs (F := F)) (r : Ref sig .tc) (x : (c : Dev nD) → Buf (Elt F) ((c : Thread nD τ).loc r)) (j : ℕ) (c : Dev nD) :
    setOut o r x j r c = x c := dif_pos rfl

theorem setOut_ne (o : Outs (F := F)) (r : Ref sig .tc) (x : (c : Dev nD) → Buf (Elt F) ((c : Thread nD τ).loc r)) {r' : Ref sig .tc} (h : r' ≠ r)
    (j : ℕ) (c : Dev nD) : setOut o r x j r' c = o j r' c := dif_neg h

def outs1 : Outs (F := F) := setOut (fun _ _ _ _ => Classical.arbitrary _) main_v34 fun c => (dat0 (En1 m) c).arrAt 6 cfg0.N
def outs2 : Outs (F := F) := setOut (outs1 m) main_v46 fun c => (dat1 (En3 m (outs1 m)) c).arrAt 6 cfg1.N
def outs3 : Outs (F := F) := setOut (outs2 m) main_v60 fun c => (dat2 (En5 m (outs2 m)) c).arrAt 12 cfg2.N

theorem outs1_v34 (c : Dev nD) : outs1 m 2 main_v34 c = (dat0 (En1 m) c).arrAt 6 cfg0.N := setOut_same ..
theorem outs2_v46 (c : Dev nD) : outs2 m 4 main_v46 c = (dat1 (En3 m (outs1 m)) c).arrAt 6 cfg1.N := setOut_same ..
theorem outs2_v34 (c : Dev nD) : outs2 m 2 main_v34 c = outs1 m 2 main_v34 c := setOut_ne _ _ _ (by decide) _ _
theorem outs3_v34 (c : Dev nD) : outs3 m 2 main_v34 c = outs1 m 2 main_v34 c := (setOut_ne _ _ _ (by decide) _ _).trans (outs2_v34 m c)
theorem outs3_v46 (c : Dev nD) : outs3 m 4 main_v46 c = outs2 m 4 main_v46 c := setOut_ne _ _ _ (by decide) _ _

/-- `V3 m o` reads `o` at the first region's output only, `V5 m o` at the first two regions' outputs only. -/
theorem V3_congr (o o' : Outs (F := F)) (c : Dev nD) (h : o 2 main_v34 c = o' 2 main_v34 c) : V3 m o c = V3 m o' c :=
  congrArg (fun x => StableHlo.after hostOps1 (Function.update (V1 m c) _ x)) h
theorem V5_congr (o o' : Outs (F := F)) (c : Dev nD) (h : o 2 main_v34 c = o' 2 main_v34 c) (h' : o 4 main_v46 c = o' 4 main_v46 c) :
    V5 m o c = V5 m o' c := by
  unfold V5 V4; rw [V3_congr m o o' c h, h']

theorem V2_at (o : Outs (F := F)) (c : Dev nD) : V2 m o c main_v34 = o 2 main_v34 c := Function.update_self ..
theorem V4_at (o : Outs (F := F)) (c : Dev nD) : V4 m o c main_v46 = o 4 main_v46 c := Function.update_self ..
theorem V6_at (o : Outs (F := F)) (c : Dev nD) : V6 m o c main_v60 = o 6 main_v60 c := Function.update_self ..

theorem En3_outs3 : En3 m (outs3 m) = En3 m (outs1 m) :=
  funext fun c => funext fun b => congrFun (V3_congr m _ _ c (outs3_v34 m c)) b
theorem En5_outs3 : En5 m (outs3 m) = En5 m (outs2 m) :=
  funext fun c => funext fun b => congrFun (V5_congr m _ _ c ((outs3_v34 m c).trans (outs2_v34 m c).symm) (outs3_v46 m c)) b

theorem outsOk : OutsOk m (outs3 m) where
  h0 c := ((V2_at m _ c).trans ((outs3_v34 m c).trans (outs1_v34 m c))).symm
  h1 c := by rw [En3_outs3 m]; exact ((V4_at m _ c).trans ((outs3_v46 m c).trans (outs2_v46 m c))).symm
  h2 c := by rw [En5_outs3 m]; exact ((V6_at m (outs3 m) c).trans (setOut_same ..)).symm

def result (c : Dev nD) : Buf (Elt F) ((c.tc : Thread nD τ).loc main_v60) := (dat2 (En5 m (outs2 m)) c).arrAt 12 cfg2.N

/-- Termination without fault, with the final contents of the result and of the sixteen arguments. -/
theorem run_full (ρ : Dev nD → PrngReg) :
    θ_run defs (onTc (τ := τ) (main (F := F))) ⟨m, fun _ => 0, ρ⟩ (fun r => ∀ c : Dev nD,
      r.2.mem ((c.tc : Thread nD τ).loc main_v60) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    have a (b : Ref sig .tc) (hb : ¬ (Proc.devRef .tc b : DevRef τ sig).isScoped) {x} (e : V6 m (outs3 m) c b = x) :
        r.2.mem ((c.tc : Thread nD τ).loc b) = x := (h c _ (mem_uc b hb)).trans e
    ⟨a main_v60 (by decide) ((V6_at m _ c).trans (setOut_same ..)),
     a main_arg0 (by decide) (V6_main_arg0 m _ c),
     a main_arg1 (by decide) (V6_main_arg1 m _ c),
     a main_arg2 (by decide) (V6_main_arg2 m _ c),
     a main_arg3 (by decide) (V6_main_arg3 m _ c),
     a main_arg4 (by decide) (V6_main_arg4 m _ c),
     a main_arg5 (by decide) (V6_main_arg5 m _ c),
     a main_arg6 (by decide) (V6_main_arg6 m _ c),
     a main_arg7 (by decide) (V6_main_arg7 m _ c),
     a main_arg8 (by decide) (V6_main_arg8 m _ c),
     a main_arg9 (by decide) (V6_main_arg9 m _ c),
     a main_arg10 (by decide) (V6_main_arg10 m _ c),
     a main_arg11 (by decide) (V6_main_arg11 m _ c),
     a main_arg12 (by decide) (V6_main_arg12 m _ c),
     a main_arg13 (by decide) (V6_main_arg13 m _ c),
     a main_arg14 (by decide) (V6_main_arg14 m _ c),
     a main_arg15 (by decide) (V6_main_arg15 m _ c)⟩)
    (run_all m (outs3 m) (outsOk m) ρ)

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => (h c).2) (run_full m ρ)

end Cert.KernelIdeal.Reg

end
-- ==== Proof.KiHost.lean ====
import proofs.«424841_j16192026706591_2_alg».proof.Proof.Gen.KernelIdeal.Regions
import Idealize.ShloMosaic.Lib.StableHlo.Run

noncomputable section

namespace Cert.KernelIdeal.Val

open Cert.KernelIdeal Cert.KernelIdeal.Gen
open Idealize.ShloMosaic Idealize.ShloMosaic.TcCoe
open Idealize.SL.Sem
open Idealize.ShloMosaic.StableHlo

variable {F : FTy → Type} [FloatOps F]

def srcK (ei : (⟨S2x800000, .i32⟩ : BufTy).Contents (Elt F)) : (⟨S800000, .i32⟩ : BufTy).Contents (Elt F) :=
  shapeCast _ (extractStridedSlice S1x800000 ![0, 0] ei slices_S2x800000_S1x800000_0_0) shapeCasts_S1x800000_S800000

def dstK (ei : (⟨S2x800000, .i32⟩ : BufTy).Contents (Elt F)) : (⟨S800000, .i32⟩ : BufTy).Contents (Elt F) :=
  shapeCast _ (extractStridedSlice S1x800000 ![1, 0] ei slices_S2x800000_S1x800000_1_0) shapeCasts_S1x800000_S800000

def aggK (h : (⟨S50000x128, .f32⟩ : BufTy).Contents (Elt F)) (ei : (⟨S2x800000, .i32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dstK ei))
    (Host.gather gather_S50000x128_S800000x1_S800000x128_1_0_n_n_0_1_1128 h
      (broadcastInDim S800000x1 ![0] bcast_S800000_S800000x1_0
        (select (cmpi .slt (srcK ei) (broadcastInDim S800000 ![] bcast_S_S800000 (constantI S_ 32 0#32)))
          (addi (srcK ei) (broadcastInDim S800000 ![] bcast_S_S800000 (constantI S_ 32 50000#32)))
          (srcK ei))))

def cntK (ei : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 (dstK ei))
    (broadcastInDim S800000 ![] bcast_S_S800000 (constant S_ .f32 0x3F800000#32))

def invK (ei : (⟨S2x800000, .i32⟩ : BufTy).Contents (Elt F)) : (⟨S50000x1, .f32⟩ : BufTy).Contents (Elt F) :=
  Host.divf (broadcastInDim S50000x1 ![] bcast_S_S50000x1 (constant S_ .f32 0x3F800000#32))
    (maximumf (shapeCast _ (cntK ei) shapeCasts_S50000_S50000x1)
      (broadcastInDim S50000x1 ![] bcast_S_S50000x1 (constant S_ .f32 0x3F800000#32)))

def gcntK (b : (⟨S50000, .i32⟩ : BufTy).Contents (Elt F)) : (⟨S128, .f32⟩ : BufTy).Contents (Elt F) :=
  Host.scatterAdd scatter_S128_S50000x1_S50000_n_0_0_1
    (broadcastInDim S128 ![] bcast_S_S128 (constant S_ .f32 0x00000000#32))
    (broadcastInDim S50000x1 ![0] bcast_S50000_S50000x1_0 b)
    (broadcastInDim S50000 ![] bcast_S_S50000 (constant S_ .f32 0x3F800000#32))

def ginvK (b : (⟨S50000, .i32⟩ : BufTy).Contents (Elt F)) : (⟨S128x1, .f32⟩ : BufTy).Contents (Elt F) :=
  Host.divf (broadcastInDim S128x1 ![] bcast_S_S128x1 (constant S_ .f32 0x3F800000#32))
    (maximumf (shapeCast _ (gcntK b) shapeCasts_S128_S128x1)
      (broadcastInDim S128x1 ![] bcast_S_S128x1 (constant S_ .f32 0x3F800000#32)))

/-- The neighbour sum read off any valuation whose two index vectors are the rows of `ei`. -/
theorem hostOps1_v44 (W : Valuation τ sig (Elt F)) (ei : (⟨S2x800000, .i32⟩ : BufTy).Contents (Elt F))
    (hs : W (Proc.devRef .tc main_v1) = srcK ei) (hd : W (Proc.devRef .tc main_v3) = dstK ei) :
    StableHlo.after hostOps1 W (Proc.devRef .tc main_v44) = aggK (W (Proc.devRef .tc main_v34)) ei := by
  after_results_simp; rw [hs, hd]; rfl

theorem hostOps1_v45 (W : Valuation τ sig (Elt F)) :
    StableHlo.after hostOps1 W (Proc.devRef .tc main_v45)
      = shapeCast _ (W (Proc.devRef .tc main_arg7)) shapeCasts_S128_S1x128 := by
  after_results_simp; rfl

theorem hostOps2_v56 (W : Valuation τ sig (Elt F)) (ei : (⟨S2x800000, .i32⟩ : BufTy).Contents (Elt F))
    (hs : W (Proc.devRef .tc main_v1) = srcK ei) (hd : W (Proc.devRef .tc main_v3) = dstK ei) :
    StableHlo.after hostOps2 W (Proc.devRef .tc main_v56) = aggK (W (Proc.devRef .tc main_v46)) ei := by
  after_results_simp; rw [hs, hd]; rfl

theorem hostOps2_v57 (W : Valuation τ sig (Elt F)) :
    StableHlo.after hostOps2 W (Proc.devRef .tc main_v57)
      = shapeCast _ (W (Proc.devRef .tc main_arg10)) shapeCasts_S128_S1x128 := by
  after_results_simp; rfl

theorem hostOps2_v58 (W : Valuation τ sig (Elt F)) :
    StableHlo.after hostOps2 W (Proc.devRef .tc main_v58)
      = shapeCast _ (W (Proc.devRef .tc main_arg13)) shapeCasts_S128_S1x128 := by
  after_results_simp; rfl

theorem hostOps2_v59 (W : Valuation τ sig (Elt F)) :
    StableHlo.after hostOps2 W (Proc.devRef .tc main_v59)
      = shapeCast _ (W (Proc.devRef .tc main_arg15)) shapeCasts_S10_S1x10 := by
  after_results_simp; rfl

variable (m : (ℓ : Loc nD τ sig) → Buf (Elt F) ℓ) (outs : Outs (F := F))

theorem V1_v1 (c : Dev nD) : V1 m c main_v1 = srcK (m ((c : Thread nD τ).loc main_arg1)) := by
  show StableHlo.after hostOps0 _ (Proc.devRef .tc main_v1) = _
  after_results_simp; rfl

theorem V1_v3 (c : Dev nD) : V1 m c main_v3 = dstK (m ((c : Thread nD τ).loc main_arg1)) := by
  show StableHlo.after hostOps0 _ (Proc.devRef .tc main_v3) = _
  after_results_simp; rfl

theorem V1_v12 (c : Dev nD) : V1 m c main_v12 = invK (m ((c : Thread nD τ).loc main_arg1)) := by
  show StableHlo.after hostOps0 _ (Proc.devRef .tc main_v12) = _
  after_results_simp; rfl

theorem V1_v21 (c : Dev nD) : V1 m c main_v21 = ginvK (m ((c : Thread nD τ).loc main_arg2)) := by
  show StableHlo.after hostOps0 _ (Proc.devRef .tc main_v21) = _
  after_results_simp; rfl

theorem V1_v22 (c : Dev nD) :
    V1 m c main_v22 = shapeCast _ (m ((c : Thread nD τ).loc main_arg2)) shapeCasts_S50000_S50000x1 := by
  show StableHlo.after hostOps0 _ (Proc.devRef .tc main_v22) = _
  after_results_simp; rfl

theorem V1_v33 (c : Dev nD) :
    V1 m c main_v33 = shapeCast _ (m ((c : Thread nD τ).loc main_arg4)) shapeCasts_S128_S1x128 := by
  show StableHlo.after hostOps0 _ (Proc.devRef .tc main_v33) = _
  after_results_simp; rfl

theorem V1_v32 (c : Dev nD) :
    V1 m c main_v32 = aggK (m ((c : Thread nD τ).loc main_arg0)) (m ((c : Thread nD τ).loc main_arg1)) := by
  show StableHlo.after hostOps0 _ (Proc.devRef .tc main_v32) = _
  after_results_simp; rfl

theorem V1_arg (c : Dev nD) (r : Ref sig .tc) (h : r ∉ hostOps0_W := by decide) : V1 m c r = m ((c : Thread nD τ).loc r) :=
  (V1_of m c r h).trans rfl

theorem V3_carry (c : Dev nD) (r : Ref sig .tc) (h1 : r ∉ hostOps1_W := by decide)
    (h2 : r ∉ ([main_v34] : List (Ref sig .tc)) := by decide) : V3 m outs c r = V1 m c r :=
  (V3_of m outs c r h1).trans (V2_of m outs c r h2)

theorem V4_carry (c : Dev nD) (r : Ref sig .tc) (h2 : r ∉ ([main_v46] : List (Ref sig .tc)) := by decide)
    (h3 : r ∉ hostOps1_W := by decide) (h4 : r ∉ ([main_v34] : List (Ref sig .tc)) := by decide) :
    V4 m outs c r = V1 m c r :=
  (V4_of m outs c r h2).trans (V3_carry m outs c r h3 h4)

theorem V5_carry (c : Dev nD) (r : Ref sig .tc) (h1 : r ∉ hostOps2_W := by decide)
    (h2 : r ∉ ([main_v46] : List (Ref sig .tc)) := by decide) (h3 : r ∉ hostOps1_W := by decide)
    (h4 : r ∉ ([main_v34] : List (Ref sig .tc)) := by decide) : V5 m outs c r = V1 m c r :=
  (V5_of m outs c r h1).trans (V4_carry m outs c r h2 h3 h4)

theorem V3_v34 (c : Dev nD) : V3 m outs c main_v34 = outs 2 main_v34 c :=
  (V3_of m outs c main_v34 (by decide)).trans (Function.update_self ..)

theorem V3_v44 (c : Dev nD) :
    V3 m outs c main_v44 = aggK (outs 2 main_v34 c) (m ((c : Thread nD τ).loc main_arg1)) :=
  (hostOps1_v44 (V2 m outs c) _ ((V2_of m outs c main_v1 (by decide)).trans (V1_v1 m c))
    ((V2_of m outs c main_v3 (by decide)).trans (V1_v3 m c))).trans (congrArg (aggK · _) (Function.update_self ..))

theorem V3_v45 (c : Dev nD) :
    V3 m outs c main_v45 = shapeCast _ (m ((c : Thread nD τ).loc main_arg7)) shapeCasts_S128_S1x128 :=
  (hostOps1_v45 (V2 m outs c)).trans (congrArg (shapeCast _ · _) ((V2_of m outs c main_arg7 (by decide)).trans (V1_arg m c main_arg7)))

theorem V5_v46 (c : Dev nD) : V5 m outs c main_v46 = outs 4 main_v46 c :=
  (V5_of m outs c main_v46 (by decide)).trans (Function.update_self ..)

theorem V5_v56 (c : Dev nD) :
    V5 m outs c main_v56 = aggK (outs 4 main_v46 c) (m ((c : Thread nD τ).loc main_arg1)) :=
  (hostOps2_v56 (V4 m outs c) _ ((V4_carry m outs c main_v1).trans (V1_v1 m c))
    ((V4_carry m outs c main_v3).trans (V1_v3 m c))).trans (congrArg (aggK · _) (Function.update_self ..))

theorem V5_v57 (c : Dev nD) :
    V5 m outs c main_v57 = shapeCast _ (m ((c : Thread nD τ).loc main_arg10)) shapeCasts_S128_S1x128 :=
  (hostOps2_v57 (V4 m outs c)).trans (congrArg (shapeCast _ · _) ((V4_carry m outs c main_arg10).trans (V1_arg m c main_arg10)))

theorem V5_v58 (c : Dev nD) :
    V5 m outs c main_v58 = shapeCast _ (m ((c : Thread nD τ).loc main_arg13)) shapeCasts_S128_S1x128 :=
  (hostOps2_v58 (V4 m outs c)).trans (congrArg (shapeCast _ · _) ((V4_carry m outs c main_arg13).trans (V1_arg m c main_arg13)))

theorem V5_v59 (c : Dev nD) :
    V5 m outs c main_v59 = shapeCast _ (m ((c : Thread nD τ).loc main_arg15)) shapeCasts_S10_S1x10 :=
  (hostOps2_v59 (V4 m outs c)).trans (congrArg (shapeCast _ · _) ((V4_carry m outs c main_arg15).trans (V1_arg m c main_arg15)))

end Cert.KernelIdeal.Val
-- ==== Proof.AlgLayer.lean ====
import proofs.«424841_j16192026706591_2_alg».proof.Proof.Gen.KernelIdeal.Skeleton
import proofs.«424841_j16192026706591_2_alg».proof.Proof.Gen.ReferenceIdeal
import proofs.«424841_j16192026706591_2_alg».proof.ReferenceIdeal
import Idealize.ShloMosaic.Lib.ValueIdxCoords
import Idealize.ShloMosaic.Lib.Pipeline.Value
import Idealize.ShloMosaic.Lib.ValueLayout
import Idealize.ShloMosaic.Lib.KernelVsHost
import Idealize.ShloMosaic.Lib.IdealHost
import Idealize.ShloMosaic.Lib.StackMember
import Idealize.ShloMosaic.PureOps.Ideal.Laws

noncomputable section

namespace Cert.Alg.Layer

open Idealize.ShloMosaic Idealize.SL.Sem Idealize.ShloMosaic.ValueIdx

section Layout
variable {α : Type}

-- A broadcast reads an axis of extent one at 0 and any other axis at the coordinate itself.
theorem coord_eq {a : ℕ} (i : Fin a) : i.val = if a = 1 then 0 else i.val := by
  split
  · omega
  · rfl

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) :=
  broadcastTo_apply v h (ix2 i j) (ix2 i (0 : Fin 1)) fun
    | ⟨0, _⟩ => by exact coord_eq i
    | ⟨1, _⟩ => by rfl

theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x (ix2 i u) (ix1 i) fun | ⟨0, _⟩ => by exact coord_eq i

theorem broadcastInDim_a1_ab_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) :=
  broadcastInDim_apply ![0, 1] h v (ix2 i j) (ix2 i (0 : Fin 1)) fun
    | ⟨0, _⟩ => by exact coord_eq i
    | ⟨1, _⟩ => by rfl

theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) :=
  broadcastInDim_apply ![1] h x (ix2 u j) (ix1 j) fun | ⟨0, _⟩ => by exact coord_eq j

end Layout

-- Every row-by-column product of the two programs has the plain record, so it is the sum over the shared axis.
theorem dg_apply {m k n : ℕ} {φ₁ φ₂ : FTy} (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

theorem mm_apply {m k n : ℕ} {φ₁ φ₂ : FTy} (d : DotDims ⟨2, ![m, k]⟩ ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂) (p : Fin m) (q : Fin n) :
    matmul d prec A B (constant _ .f32 0x00000000#32) (ix2 p q) = ∑ c : Fin k, A (ix2 p c) * B (ix2 c q) := by
  rw [matmul_zero_eq_dotGeneral, dg_apply d hd]

section KernelSide
open Cert.KernelIdeal Cert.KernelIdeal.Gen

theorem k0_pay1_apply (v0 : Vec Ideal S5000x128 .f32) (v2 : Vec Ideal S5000x1 .f32) (v7 : Vec Ideal S5000x128 .f32)
    (v9 v11 : Vec Ideal S128x128 .f32) (v16 : Vec Ideal S1x128 .f32) (p : Fin 5000) (q : Fin 128) :
    k0_pay1 v0 v2 v7 v9 v11 v16 (ix2 p q)
      = max (((∑ k : Fin 128, (v0 (ix2 p k) * v2 (ix2 p 0)) * v9 (ix2 k q))
              + ∑ k : Fin 128, v7 (ix2 p k) * v11 (ix2 k q)) + v16 (ix2 0 q)) 0 := by
  unfold k0_pay1
  rw [shapeCast_self v0, shapeCast_self v2, shapeCast_self v16, maximumf_apply, addf_apply, addf_apply,
    broadcastTo_1b_ab_apply, broadcast_apply]
  simp only [mm_apply dot_S5000x128_S128x128_S5000x128_1_0_0_1_n_n rfl, truncf_apply, mulf_apply, broadcastTo_a1_ab_apply]
  exact congrArg (max _) Ideal.ofBits_zero_f32

theorem k1_pay1_apply (v0 : Vec Ideal S5000x128 .f32) (v2 : Vec Ideal S5000x1 .f32) (v7 : Vec Ideal S5000x128 .f32)
    (v10 v12 : Vec Ideal S128x128 .f32) (v17 : Vec Ideal S1x128 .f32) (p : Fin 5000) (q : Fin 128) :
    k1_pay1 v0 v2 v7 v10 v12 v17 (ix2 p q)
      = max (((∑ k : Fin 128, (v0 (ix2 p k) * v2 (ix2 p 0)) * v10 (ix2 k q))
              + ∑ k : Fin 128, v7 (ix2 p k) * v12 (ix2 k q)) + v17 (ix2 0 q)) 0 := by
  have e : k1_pay1 v0 v2 v7 v10 v12 v17 = k0_pay1 v0 v2 v7 v10 v12 v17 := by
    unfold k1_pay1 k0_pay1
    rw [shapeCast_self v7]
  rw [e, k0_pay1_apply]

def ylayer2 {F : FTy → Type} [FloatOps F] (v3 : Vec F S2000x128 .f32) (v5 : Vec F S2000x1 .f32) (v10 : Vec F S2000x128 .f32)
    (v13 v15 : Vec F S128x128 .f32) (v20 : Vec F S1x128 .f32) : FVec F S2000x128 .f32 :=
  maximumf
    (addf
      (addf
        (matmul dot_S2000x128_S128x128_S2000x128_1_0_0_1_n_n none
          (truncf .bf16 (mulf (shapeCast S2000x128 v3 shapeCasts_S2000x128_S2000x128)
            (broadcastTo S2000x128 (shapeCast S2000x1 v5 shapeCasts_S2000x1_S2000x1) broadcasts_S2000x1_S2000x128)) bitsLt_bf16_f32)
          (truncf .bf16 v13 bitsLt_bf16_f32) (constant S2000x128 .f32 0x00000000#32))
        (matmul dot_S2000x128_S128x128_S2000x128_1_0_0_1_n_n none
          (truncf .bf16 (shapeCast S2000x128 v10 shapeCasts_S2000x128_S2000x128) bitsLt_bf16_f32)
          (truncf .bf16 v15 bitsLt_bf16_f32) (constant S2000x128 .f32 0x00000000#32)))
      (broadcastTo S2000x128 (shapeCast S1x128 v20 shapeCasts_S1x128_S1x128) broadcasts_S1x128_S2000x128))
    (broadcast S2000x128 (Scalar.ofBits .f32 0x00000000#32))

theorem ylayer2_apply (v3 : Vec Ideal S2000x128 .f32) (v5 : Vec Ideal S2000x1 .f32) (v10 : Vec Ideal S2000x128 .f32)
    (v13 v15 : Vec Ideal S128x128 .f32) (v20 : Vec Ideal S1x128 .f32) (p : Fin 2000) (q : Fin 128) :
    ylayer2 v3 v5 v10 v13 v15 v20 (ix2 p q)
      = max (((∑ k : Fin 128, (v3 (ix2 p k) * v5 (ix2 p 0)) * v13 (ix2 k q))
              + ∑ k : Fin 128, v10 (ix2 p k) * v15 (ix2 k q)) + v20 (ix2 0 q)) 0 := by
  unfold ylayer2
  rw [shapeCast_self v3, shapeCast_self v5, shapeCast_self v10, shapeCast_self v20, maximumf_apply, addf_apply, addf_apply,
    broadcastTo_1b_ab_apply, broadcast_apply]
  simp only [mm_apply dot_S2000x128_S128x128_S2000x128_1_0_0_1_n_n rfl, truncf_apply, mulf_apply, broadcastTo_a1_ab_apply]
  exact congrArg (max _) Ideal.ofBits_zero_f32

end KernelSide

section ReferenceSide
open Cert.ReferenceIdeal Cert.ReferenceIdeal.Gen

def lyrR (a : FVec Ideal S50000x128 .f32) (c : FVec Ideal S50000 .f32) (h : FVec Ideal S50000x128 .f32)
    (Wl : FVec Ideal S128x128 .f32) (bl : FVec Ideal S128 .f32) (Wr : FVec Ideal S128x128 .f32) : FVec Ideal S50000x128 .f32 :=
  maximumf
    (addf
      (addf
        (Host.dotGeneral (F := Ideal) dot_S50000x128_S128x128_S50000x128_1_0_0_1_n_n none
          (Host.divf (F := Ideal) a
            (broadcastInDim S50000x128 ![0, 1] bcast_S50000x1_S50000x128_0_1
              (broadcastInDim S50000x1 ![0] bcast_S50000_S50000x1_0
                (maximumf c (broadcastInDim S50000 ![] bcast_S_S50000 (constant (F := Ideal) S_ .f32 0x3F800000#32))))))
          Wl)
        (broadcastInDim S50000x128 ![0, 1] bcast_S1x128_S50000x128_0_1 (broadcastInDim S1x128 ![1] bcast_S128_S1x128_1 bl)))
      (Host.dotGeneral (F := Ideal) dot_S50000x128_S128x128_S50000x128_1_0_0_1_n_n none h Wr))
    (broadcastInDim S50000x128 ![] bcast_S_S50000x128 (constant (F := Ideal) S_ .f32 0x00000000#32))

theorem lyrR_apply (a : FVec Ideal S50000x128 .f32) (c : FVec Ideal S50000 .f32) (h : FVec Ideal S50000x128 .f32)
    (Wl : FVec Ideal S128x128 .f32) (bl : FVec Ideal S128 .f32) (Wr : FVec Ideal S128x128 .f32) (i : Fin 50000) (j : Fin 128) :
    lyrR a c h Wl bl Wr (ix2 i j)
      = max (((∑ k : Fin 128, Ideal.div (a (ix2 i k)) (max (c (ix1 i)) 1) * Wl (ix2 k j)) + bl (ix1 j))
              + ∑ k : Fin 128, h (ix2 i k) * Wr (ix2 k j)) 0 := by
  unfold lyrR
  rw [maximumf_apply, addf_apply, addf_apply, broadcastInDim_oneRow_apply, broadcastInDim_b_1b_apply,
    broadcastInDim_scalar_apply, constant_apply, Ideal.ofBits_zero_f32]
  simp only [dg_apply dot_S50000x128_S128x128_S50000x128_1_0_0_1_n_n rfl]
  refine congrArg (fun s => max ((s + _) + _) 0) (Finset.sum_congr rfl fun k _ => ?_)
  rw [hostDivf_apply, broadcastInDim_a1_ab_apply, broadcastInDim_a_a1_apply, maximumf_apply, broadcastInDim_scalar_apply,
    constant_apply, Ideal.ofBits_one_f32]

end ReferenceSide

def invOf (c : FVec Ideal Cert.KernelIdeal.S50000 .f32) : FVec Ideal Cert.KernelIdeal.S50000x1 .f32 :=
  Host.divf (F := Ideal)
    (broadcastInDim Cert.KernelIdeal.S50000x1 ![] Cert.KernelIdeal.Gen.bcast_S_S50000x1
      (constant (F := Ideal) Cert.KernelIdeal.S_ .f32 0x3F800000#32))
    (maximumf (shapeCast Cert.KernelIdeal.S50000x1 c Cert.KernelIdeal.Gen.shapeCasts_S50000_S50000x1)
      (broadcastInDim Cert.KernelIdeal.S50000x1 ![] Cert.KernelIdeal.Gen.bcast_S_S50000x1
        (constant (F := Ideal) Cert.KernelIdeal.S_ .f32 0x3F800000#32)))

theorem invOf_apply (c : FVec Ideal Cert.KernelIdeal.S50000 .f32) (i : Fin 50000) (u : Fin 1) :
    invOf c (ix2 i u) = Ideal.div 1 (max (c (ix1 i)) 1) := by
  unfold invOf
  rw [hostDivf_apply, broadcastInDim_scalar_apply, constant_apply, maximumf_apply, shapeCast_a_a1_apply,
    broadcastInDim_scalar_apply, constant_apply, Ideal.ofBits_one_f32]

end Cert.Alg.Layer
-- ==== Proof.AlgLayer2.lean ====
import proofs.«424841_j16192026706591_2_alg».proof.Proof.AlgLayer

noncomputable section

namespace Cert.Alg.Layer

open Idealize.ShloMosaic Idealize.SL.Sem Idealize.ShloMosaic.ValueIdx

def lyrK (a h : FVec Ideal Cert.KernelIdeal.S50000x128 .f32) (inv : FVec Ideal Cert.KernelIdeal.S50000x1 .f32)
    (Wl Wr : FVec Ideal Cert.KernelIdeal.S128x128 .f32) (blr : FVec Ideal Cert.KernelIdeal.S1x128 .f32) :
    FVec Ideal Cert.KernelIdeal.S50000x128 .f32 :=
  fun i => max (((∑ k : Fin 128, (a (ix2 (i 0) k) * inv (ix2 (i 0) 0)) * Wl (ix2 k (i 1))) + ∑ k : Fin 128, h (ix2 (i 0) k) * Wr (ix2 k (i 1))) + blr (ix2 0 (i 1))) 0

-- Scaling by the reciprocal of a divisor clamped below by one is dividing by it; the bias is added on either side of the second product.
theorem lyrK_eq_lyrR (a h : FVec Ideal Cert.KernelIdeal.S50000x128 .f32) (cn : FVec Ideal Cert.KernelIdeal.S50000 .f32)
    (Wl Wr : FVec Ideal Cert.KernelIdeal.S128x128 .f32) (bl : FVec Ideal Cert.KernelIdeal.S128 .f32) :
    lyrK a h (invOf cn) Wl Wr (shapeCast Cert.KernelIdeal.S1x128 bl Cert.KernelIdeal.Gen.shapeCasts_S128_S1x128)
      = lyrR a cn h Wl bl Wr := by
  funext i
  obtain ⟨p, q, rfl⟩ : ∃ (p : Fin 50000) (q : Fin 128), i = ix2 p q := ⟨i 0, i 1, eq_ix2 i⟩
  rw [lyrR_apply, add_right_comm]
  show max ((_ + _) + shapeCast _ bl _ (ix2 0 q)) 0 = _
  rw [shapeCast_a_1a_apply]
  refine congrArg (fun s => max ((s + _) + _) 0) (Finset.sum_congr rfl fun k _ => ?_)
  show a (ix2 p k) * invOf cn (ix2 p 0) * _ = _
  rw [invOf_apply, Ideal.mul_one_div (lt_of_lt_of_le zero_lt_one (le_max_right _ 1)).ne']

end Cert.Alg.Layer
-- ==== Proof.KiEntry.lean ====
import proofs.«424841_j16192026706591_2_alg».proof.Proof.KiHost
import proofs.«424841_j16192026706591_2_alg».proof.Proof.AlgLayer2

noncomputable section

namespace Cert.KernelIdeal.Val

open Cert.KernelIdeal Cert.KernelIdeal.Gen
open Idealize.ShloMosaic Idealize.ShloMosaic.TcCoe
open Idealize.SL.Sem
open Cert.Alg.Layer (lyrK)

variable (m : (ℓ : Loc nD τ sig) → Buf (Elt Ideal) ℓ)

def K1 (c : Dev nD) : FVec Ideal S50000x128 .f32 :=
  Cert.Alg.Layer.lyrK (aggK (F := Ideal) (m ((c : Thread nD τ).loc main_arg0)) (m ((c : Thread nD τ).loc main_arg1))) (m ((c : Thread nD τ).loc main_arg0)) (invK (F := Ideal) (m ((c : Thread nD τ).loc main_arg1)))
    (m ((c : Thread nD τ).loc main_arg3)) (m ((c : Thread nD τ).loc main_arg5)) (shapeCast S1x128 (m ((c : Thread nD τ).loc main_arg4)) shapeCasts_S128_S1x128)

def K2 (c : Dev nD) : FVec Ideal S50000x128 .f32 :=
  Cert.Alg.Layer.lyrK (aggK (F := Ideal) (K1 m c) (m ((c : Thread nD τ).loc main_arg1))) (K1 m c) (invK (F := Ideal) (m ((c : Thread nD τ).loc main_arg1)))
    (m ((c : Thread nD τ).loc main_arg6)) (m ((c : Thread nD τ).loc main_arg8)) (shapeCast S1x128 (m ((c : Thread nD τ).loc main_arg7)) shapeCasts_S128_S1x128)

def K3 (c : Dev nD) : FVec Ideal S50000x128 .f32 :=
  Cert.Alg.Layer.lyrK (aggK (F := Ideal) (K2 m c) (m ((c : Thread nD τ).loc main_arg1))) (K2 m c) (invK (F := Ideal) (m ((c : Thread nD τ).loc main_arg1)))
    (m ((c : Thread nD τ).loc main_arg9)) (m ((c : Thread nD τ).loc main_arg11)) (shapeCast S1x128 (m ((c : Thread nD τ).loc main_arg10)) shapeCasts_S128_S1x128)

/-- The layer of the first region's operands is the first layer. -/
theorem entry1 (c : Dev nD) :
    lyrK (V1 m c main_v32) (V1 m c main_arg0) (V1 m c main_v12) (V1 m c main_arg3) (V1 m c main_arg5) (V1 m c main_v33)
      = K1 m c := by
  rw [V1_v32, V1_arg m c main_arg0, V1_v12, V1_arg m c main_arg3, V1_arg m c main_arg5, V1_v33]
  rfl

/-- If the first region left the first layer, the layer of the second region's operands is the second layer. -/
theorem entry3 (outs : Outs (F := Ideal)) (c : Dev nD) (h : outs 2 main_v34 c = K1 m c) :
    lyrK (V3 m outs c main_v44) (V3 m outs c main_v34) (V3 m outs c main_v12) (V3 m outs c main_arg6) (V3 m outs c main_arg8)
        (V3 m outs c main_v45) = K2 m c := by
  rw [V3_v44, V3_v34, V3_carry m outs c main_v12, V1_v12, V3_carry m outs c main_arg6, V1_arg m c main_arg6,
    V3_carry m outs c main_arg8, V1_arg m c main_arg8, V3_v45, h]
  rfl

/-- If the second region left the second layer, the layer of the third region's operands is the third layer. -/
theorem entry5 (outs : Outs (F := Ideal)) (c : Dev nD) (h : outs 4 main_v46 c = K2 m c) :
    lyrK (V5 m outs c main_v56) (V5 m outs c main_v46) (V5 m outs c main_v12) (V5 m outs c main_arg9) (V5 m outs c main_arg11)
        (V5 m outs c main_v57) = K3 m c := by
  rw [V5_v56, V5_v46, V5_carry m outs c main_v12, V1_v12, V5_carry m outs c main_arg9, V1_arg m c main_arg9,
    V5_carry m outs c main_arg11, V1_arg m c main_arg11, V5_v57, h]
  rfl

theorem entry5_head (outs : Outs (F := Ideal)) (c : Dev nD) (P : FVec Ideal S128x128 .f32) :
    k2_pay2 (F := Ideal) P (V5 m outs c main_v21) (V5 m outs c main_arg12) (V5 m outs c main_v58) (V5 m outs c main_arg14)
        (V5 m outs c main_v59)
      = k2_pay2 (F := Ideal) P (ginvK (F := Ideal) (m ((c : Thread nD τ).loc main_arg2))) (m ((c : Thread nD τ).loc main_arg12)) (shapeCast S1x128 (m ((c : Thread nD τ).loc main_arg13)) shapeCasts_S128_S1x128)
          (m ((c : Thread nD τ).loc main_arg14)) (shapeCast S1x10 (m ((c : Thread nD τ).loc main_arg15)) shapeCasts_S10_S1x10) := by
  rw [V5_carry m outs c main_v21, V1_v21, V5_carry m outs c main_arg12, V1_arg m c main_arg12, V5_v58,
    V5_carry m outs c main_arg14, V1_arg m c main_arg14, V5_v59]

theorem entry5_ids (outs : Outs (F := Ideal)) (c : Dev nD) :
    V5 m outs c main_v22 = shapeCast S50000x1 (m ((c : Thread nD τ).loc main_arg2)) shapeCasts_S50000_S50000x1 :=
  (V5_carry m outs c main_v22).trans (V1_v22 m c)

end Cert.KernelIdeal.Val
-- ==== Proof.KiValue01.lean ====
import proofs.«424841_j16192026706591_2_alg».proof.Proof.KiRegion0
import proofs.«424841_j16192026706591_2_alg».proof.Proof.KiRegion1
import proofs.«424841_j16192026706591_2_alg».proof.Proof.AlgLayer2
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Cert.KernelIdeal.Reg
open Idealize.ShloMosaic Idealize.ShloMosaic.TcCoe Idealize.SL.Sem Idealize.ShloMosaic.ValueIdx
open Idealize.ShloMosaic.Pipeline (Dat)
open Cert.Alg.Layer (lyrK)

theorem hz : (![0, 0] : Fin 2 → Nat) = fun _ => 0 := funext fun a => by fin_cases a <;> rfl

/-- Rows 5000 t … 5000 t + 4999 of an array of 50000 rows. -/
def rowBlk {α : Type} {m : ℕ} (A : (⟨2, ![50000, m]⟩ : Shape).Idx → α) (t : ℕ) (ht : t < 10) : (⟨2, ![5000, m]⟩ : Shape).Idx → α :=
  fun q => A (ix2 ⟨5000 * t + (q 0).val, by have h : (q 0).val < 5000 := (q 0).isLt; omega⟩ (q 1))

/-- A row-wise layer formula on a row block of the operands gives the row block of the layer of the arrays. -/
theorem layer_rows (pay : Vec Ideal S5000x128 .f32 → Vec Ideal S5000x1 .f32 → Vec Ideal S5000x128 .f32 → Vec Ideal S128x128 .f32 →
      Vec Ideal S128x128 .f32 → Vec Ideal S1x128 .f32 → FVec Ideal S5000x128 .f32)
    (hpay : ∀ (v0 : Vec Ideal S5000x128 .f32) (v2 : Vec Ideal S5000x1 .f32) (v7 : Vec Ideal S5000x128 .f32)
        (v9 v11 : Vec Ideal S128x128 .f32) (v16 : Vec Ideal S1x128 .f32) (p : Fin 5000) (q : Fin 128),
      pay v0 v2 v7 v9 v11 v16 (ix2 p q)
        = max (((∑ k : Fin 128, (v0 (ix2 p k) * v2 (ix2 p 0)) * v9 (ix2 k q))
            + ∑ k : Fin 128, v7 (ix2 p k) * v11 (ix2 k q)) + v16 (ix2 0 q)) 0)
    (a h : Vec Ideal S50000x128 .f32) (inv : Vec Ideal S50000x1 .f32) (Wl Wr : Vec Ideal S128x128 .f32)
    (blr : Vec Ideal S1x128 .f32) (t : ℕ) (ht : t < 10) :
    pay (rowBlk a t ht) (rowBlk inv t ht) (rowBlk h t ht) Wl Wr blr = rowBlk (lyrK a h inv Wl Wr blr) t ht := by
  funext i
  obtain ⟨p, q, rfl⟩ : ∃ (p : Fin 5000) (q : Fin 128), i = ix2 p q := ⟨i 0, i 1, eq_ix2 i⟩
  rw [hpay]
  rfl

variable (V : (c : Dev nD) → (b : Ref sig .tc) → Buf (Elt Ideal) ((c : Thread nD τ).loc b))

theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem tlt0 (t : Fin cfg0.N) : t.val < 10 := lt_of_lt_of_eq t.isLt N_0

theorem blk0_0 (c : Dev nD) (t : Fin cfg0.N) : (iblk0 V c 0 t : Vec Ideal S5000x128 .f32) = rowBlk (V c main_v32) t.val (tlt0 t) :=
  funext fun q => congrArg (V c main_v32 : Vec Ideal S50000x128 .f32) (Shape.idx_ext₂
    (by show win0_0.index t (0 : Fin 2) * 5000 + 1 * (q 0).val = 5000 * t.val + (q 0).val; have := idx0 t; omega)
    (by show win0_0.index t (1 : Fin 2) * 128 + 1 * (q 1).val = (q 1).val; have := idx0 t; omega))

theorem blk0_1 (c : Dev nD) (t : Fin cfg0.N) : (iblk0 V c 1 t : Vec Ideal S5000x128 .f32) = rowBlk (V c main_arg0) t.val (tlt0 t) :=
  funext fun q => congrArg (V c main_arg0 : Vec Ideal S50000x128 .f32) (Shape.idx_ext₂
    (by show win0_1.index t (0 : Fin 2) * 5000 + 1 * (q 0).val = 5000 * t.val + (q 0).val; have := idx0 t; omega)
    (by show win0_1.index t (1 : Fin 2) * 128 + 1 * (q 1).val = (q 1).val; have := idx0 t; omega))

theorem blk0_2 (c : Dev nD) (t : Fin cfg0.N) : (iblk0 V c 2 t : Vec Ideal S5000x1 .f32) = rowBlk (V c main_v12) t.val (tlt0 t) :=
  funext fun q => congrArg (V c main_v12 : Vec Ideal S50000x1 .f32) (Shape.idx_ext₂
    (by show win0_2.index t (0 : Fin 2) * 5000 + 1 * (q 0).val = 5000 * t.val + (q 0).val; have := idx0 t; omega)
    (by show win0_2.index t (1 : Fin 2) * 1 + 1 * (q 1).val = (q 1).val; have := idx0 t; omega))

theorem blk0_3 (c : Dev nD) (t : Fin cfg0.N) : (iblk0 V c 3 t : Vec Ideal S128x128 .f32) = V c main_arg3 :=
  funext fun q => congrArg (V c main_arg3 : Vec Ideal S128x128 .f32) (Shape.idx_ext₂
    (by show win0_3.index t (0 : Fin 2) * 128 + 1 * (q 0).val = (q 0).val; have := idx0 t; omega)
    (by show win0_3.index t (1 : Fin 2) * 128 + 1 * (q 1).val = (q 1).val; have := idx0 t; omega))

theorem blk0_4 (c : Dev nD) (t : Fin cfg0.N) : (iblk0 V c 4 t : Vec Ideal S1x128 .f32) = V c main_v33 :=
  funext fun q => congrArg (V c main_v33 : Vec Ideal S1x128 .f32) (Shape.idx_ext₂
    (by show win0_4.index t (0 : Fin 2) * 1 + 1 * (q 0).val = (q 0).val; have := idx0 t; omega)
    (by show win0_4.index t (1 : Fin 2) * 128 + 1 * (q 1).val = (q 1).val; have := idx0 t; omega))

theorem blk0_5 (c : Dev nD) (t : Fin cfg0.N) : (iblk0 V c 5 t : Vec Ideal S128x128 .f32) = V c main_arg5 :=
  funext fun q => congrArg (V c main_arg5 : Vec Ideal S128x128 .f32) (Shape.idx_ext₂
    (by show win0_5.index t (0 : Fin 2) * 128 + 1 * (q 0).val = (q 0).val; have := idx0 t; omega)
    (by show win0_5.index t (1 : Fin 2) * 128 + 1 * (q 1).val = (q 1).val; have := idx0 t; omega))

theorem blk0_6 (G : Vec Ideal S50000x128 .f32) (t : Fin cfg0.N) :
    (((cfg0.win 6).blk t).view.read (Elt Ideal) G : Vec Ideal S5000x128 .f32) = rowBlk G t.val (tlt0 t) :=
  funext fun q => congrArg G (Shape.idx_ext₂
    (by show win0_6.index t (0 : Fin 2) * 5000 + 1 * (q 0).val = 5000 * t.val + (q 0).val; have := idx0 t; omega)
    (by show win0_6.index t (1 : Fin 2) * 128 + 1 * (q 1).val = (q 1).val; have := idx0 t; omega))

theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  let t : Fin cfg0.N := ⟨(i 0).val / 5000, by omega⟩
  have htv : t.val = (i 0).val / 5000 := rfl
  have := idx0 t
  refine ⟨t, flush0_6 t, ?_⟩
  show i ∈ ((View.whole main_v34).slice (win0_6.rect t)).set
  rw [View.set_slice_whole, Rect.mem_set_unit]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

theorem arr0_eq (c : Dev nD) :
    (dat0 (F := Ideal) V c).arrAt 6 cfg0.N
      = lyrK (V c main_v32) (V c main_arg0) (V c main_v12) (V c main_arg3) (V c main_arg5) (V c main_v33) :=
  (dat0 (F := Ideal) V c).arrAt_eq_of_cover 6 _ (fun t _ => by
    show (cfg0.win 6).cut (grid0.coords t) ((dat0 V c).after 6 t) = _
    rw [after0_6, blk0_6]
    unfold out0_6
    rw [View.canon_unit_zero hz]
    simp only [View.ld_unit_zero (S := S5000x128) hz, View.ld_unit_zero (S := S5000x1) hz,
      View.ld_unit_zero (S := S128x128) hz, View.ld_unit_zero (S := S1x128) hz]
    rw [blk0_0, blk0_1, blk0_2, blk0_3, blk0_4, blk0_5, layer_rows _ Cert.Alg.Layer.k0_pay1_apply]
    rfl) cover0

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem tlt1 (t : Fin cfg1.N) : t.val < 10 := lt_of_lt_of_eq t.isLt N_1

theorem blk1_0 (c : Dev nD) (t : Fin cfg1.N) : (iblk1 V c 0 t : Vec Ideal S5000x128 .f32) = rowBlk (V c main_v44) t.val (tlt1 t) :=
  funext fun q => congrArg (V c main_v44 : Vec Ideal S50000x128 .f32) (Shape.idx_ext₂
    (by show win1_0.index t (0 : Fin 2) * 5000 + 1 * (q 0).val = 5000 * t.val + (q 0).val; have := idx1 t; omega)
    (by show win1_0.index t (1 : Fin 2) * 128 + 1 * (q 1).val = (q 1).val; have := idx1 t; omega))

theorem blk1_1 (c : Dev nD) (t : Fin cfg1.N) : (iblk1 V c 1 t : Vec Ideal S5000x128 .f32) = rowBlk (V c main_v34) t.val (tlt1 t) :=
  funext fun q => congrArg (V c main_v34 : Vec Ideal S50000x128 .f32) (Shape.idx_ext₂
    (by show win1_1.index t (0 : Fin 2) * 5000 + 1 * (q 0).val = 5000 * t.val + (q 0).val; have := idx1 t; omega)
    (by show win1_1.index t (1 : Fin 2) * 128 + 1 * (q 1).val = (q 1).val; have := idx1 t; omega))

theorem blk1_2 (c : Dev nD) (t : Fin cfg1.N) : (iblk1 V c 2 t : Vec Ideal S5000x1 .f32) = rowBlk (V c main_v12) t.val (tlt1 t) :=
  funext fun q => congrArg (V c main_v12 : Vec Ideal S50000x1 .f32) (Shape.idx_ext₂
    (by show win1_2.index t (0 : Fin 2) * 5000 + 1 * (q 0).val = 5000 * t.val + (q 0).val; have := idx1 t; omega)
    (by show win1_2.index t (1 : Fin 2) * 1 + 1 * (q 1).val = (q 1).val; have := idx1 t; omega))

theorem blk1_3 (c : Dev nD) (t : Fin cfg1.N) : (iblk1 V c 3 t : Vec Ideal S128x128 .f32) = V c main_arg6 :=
  funext fun q => congrArg (V c main_arg6 : Vec Ideal S128x128 .f32) (Shape.idx_ext₂
    (by show win1_3.index t (0 : Fin 2) * 128 + 1 * (q 0).val = (q 0).val; have := idx1 t; omega)
    (by show win1_3.index t (1 : Fin 2) * 128 + 1 * (q 1).val = (q 1).val; have := idx1 t; omega))

theorem blk1_4 (c : Dev nD) (t : Fin cfg1.N) : (iblk1 V c 4 t : Vec Ideal S1x128 .f32) = V c main_v45 :=
  funext fun q => congrArg (V c main_v45 : Vec Ideal S1x128 .f32) (Shape.idx_ext₂
    (by show win1_4.index t (0 : Fin 2) * 1 + 1 * (q 0).val = (q 0).val; have := idx1 t; omega)
    (by show win1_4.index t (1 : Fin 2) * 128 + 1 * (q 1).val = (q 1).val; have := idx1 t; omega))

theorem blk1_5 (c : Dev nD) (t : Fin cfg1.N) : (iblk1 V c 5 t : Vec Ideal S128x128 .f32) = V c main_arg8 :=
  funext fun q => congrArg (V c main_arg8 : Vec Ideal S128x128 .f32) (Shape.idx_ext₂
    (by show win1_5.index t (0 : Fin 2) * 128 + 1 * (q 0).val = (q 0).val; have := idx1 t; omega)
    (by show win1_5.index t (1 : Fin 2) * 128 + 1 * (q 1).val = (q 1).val; have := idx1 t; omega))

theorem blk1_6 (G : Vec Ideal S50000x128 .f32) (t : Fin cfg1.N) :
    (((cfg1.win 6).blk t).view.read (Elt Ideal) G : Vec Ideal S5000x128 .f32) = rowBlk G t.val (tlt1 t) :=
  funext fun q => congrArg G (Shape.idx_ext₂
    (by show win1_6.index t (0 : Fin 2) * 5000 + 1 * (q 0).val = 5000 * t.val + (q 0).val; have := idx1 t; omega)
    (by show win1_6.index t (1 : Fin 2) * 128 + 1 * (q 1).val = (q 1).val; have := idx1 t; omega))

theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by omega⟩
  have htv : t.val = (i 0).val / 5000 := rfl
  have := idx1 t
  refine ⟨t, flush1_6 t, ?_⟩
  show i ∈ ((View.whole main_v46).slice (win1_6.rect t)).set
  rw [View.set_slice_whole, Rect.mem_set_unit]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

theorem arr1_eq (c : Dev nD) :
    (dat1 (F := Ideal) V c).arrAt 6 cfg1.N
      = lyrK (V c main_v44) (V c main_v34) (V c main_v12) (V c main_arg6) (V c main_arg8) (V c main_v45) :=
  (dat1 (F := Ideal) V c).arrAt_eq_of_cover 6 _ (fun t _ => by
    show (cfg1.win 6).cut (grid1.coords t) ((dat1 V c).after 6 t) = _
    rw [after1_6, blk1_6]
    unfold out1_6
    rw [View.canon_unit_zero hz]
    simp only [View.ld_unit_zero (S := S5000x128) hz, View.ld_unit_zero (S := S5000x1) hz,
      View.ld_unit_zero (S := S128x128) hz, View.ld_unit_zero (S := S1x128) hz]
    rw [blk1_0, blk1_1, blk1_2, blk1_3, blk1_4, blk1_5, layer_rows _ Cert.Alg.Layer.k1_pay1_apply]
    rfl) cover1

end Cert.KernelIdeal.Val

end
-- ==== Proof.KiRegion2Val.lean ====
import proofs.«424841_j16192026706591_2_alg».proof.Proof.KiRegion2

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scratch2_zero (c : Dev nD) (h : 0 < cfg2.N) :
    (outsAt2 V c 0 h).2 = k2_pay1 (k2_pay4 (iblk2 V c 0 ⟨0, h⟩) (iblk2 V c 2 ⟨0, h⟩) (iblk2 V c 1 ⟨0, h⟩) (iblk2 V c 3 ⟨0, h⟩) (iblk2 V c 5 ⟨0, h⟩) (iblk2 V c 4 ⟨0, h⟩) (iblk2 V c 6 ⟨0, h⟩) (k2_pay3 (F := F))) :=
  rfl

theorem scratch2_succ (c : Dev nD) (n : ℕ) (h : n + 1 < cfg2.N) :
    (outsAt2 V c (n + 1) h).2 = k2_pay1 (k2_pay4 (iblk2 V c 0 ⟨n + 1, h⟩) (iblk2 V c 2 ⟨n + 1, h⟩) (iblk2 V c 1 ⟨n + 1, h⟩) (iblk2 V c 3 ⟨n + 1, h⟩) (iblk2 V c 5 ⟨n + 1, h⟩) (iblk2 V c 4 ⟨n + 1, h⟩) (iblk2 V c 6 ⟨n + 1, h⟩) (outsAt2 V c n (Nat.lt_of_succ_lt h)).2) :=
  rfl

theorem output2_last (c : Dev nD) (h : 24 < cfg2.N) :
    (outsAt2 V c 24 h).1 = k2_pay2 (outsAt2 V c 24 h).2 (iblk2 V c 7 ⟨24, h⟩) (iblk2 V c 8 ⟨24, h⟩) (iblk2 V c 9 ⟨24, h⟩) (iblk2 V c 10 ⟨24, h⟩) (iblk2 V c 11 ⟨24, h⟩) :=
  outs2_fst V c ⟨24, h⟩

end Cert.KernelIdeal.Reg

end
-- ==== Proof.AlgPool.lean ====
import proofs.«424841_j16192026706591_2_alg».proof.Proof.AlgLayer
import Idealize.ShloMosaic.Lib.Affine

noncomputable section

namespace Cert.Alg.Pool

open Idealize.ShloMosaic Idealize.SL.Sem Idealize.ShloMosaic.ValueIdx
open Cert.KernelIdeal Cert.KernelIdeal.Gen
open scoped BigOperators

section Generic
variable {F : FTy → Type} [FloatOps F]

def onehot2 (v26 : Vec F S2000x1 .i32) : FVec F S2000x128 .f32 :=
  sitofp .f32 (extui 32 (cmpi .eq
    (broadcastTo S2000x128 (shapeCast S2000x1 v26 shapeCasts_S2000x1_S2000x1) broadcasts_S2000x1_S2000x128)
    (iota .tc S2000x128 32 [1] iota_S2000x128_d1_w32)) natLt_1_32)

def mm (oh : FVec F S2000x128 .f32) (y : FVec F S2000x128 .f32) : FVec F S128x128 .f32 :=
  matmul dot_S2000x128_S2000x128_S128x128_0_0_1_1_n_n (some .fp32) oh y (constant S128x128 .f32 0x00000000#32)

end Generic

theorem iota_lane (r : Fin 2000) (g : Fin 128) :
    iota .tc S2000x128 32 [1] iota_S2000x128_d1_w32 (ix2 r g) = BitVec.ofNat 32 g.val := by
  show BitVec.ofNat 32 (0 * 128 + g.val) = _
  rw [Nat.zero_mul, Nat.zero_add]

-- The compare bit, widened and read as a float, is 1 where the row's id is the column number and 0 elsewhere.
theorem onehot2_apply (v26 : Vec Ideal S2000x1 .i32) (r : Fin 2000) (g : Fin 128) :
    onehot2 (F := Ideal) v26 (ix2 r g) = if v26 (ix2 r 0) = BitVec.ofNat 32 g.val then 1 else 0 := by
  unfold onehot2
  show (((((IntOp.cmpi .eq (broadcastTo S2000x128 (shapeCast S2000x1 v26 shapeCasts_S2000x1_S2000x1) broadcasts_S2000x1_S2000x128 (ix2 r g))
      (iota .tc S2000x128 32 [1] iota_S2000x128_d1_w32 (ix2 r g))).setWidth 32).toInt : ℝ) : EReal)) = _
  rw [shapeCast_self, Cert.Alg.Layer.broadcastTo_a1_ab_apply, iota_lane]
  by_cases h : v26 (ix2 r 0) = BitVec.ofNat 32 g.val
  · rw [if_pos h, IntOp.cmpi_eq.mpr h]
    show (((1 : ℤ) : ℝ) : EReal) = 1
    norm_num
  · rw [if_neg h, eq_zero_of_ne_one (mt IntOp.cmpi_eq.mp h)]
    show (((0 : ℤ) : ℝ) : EReal) = 0
    norm_num

-- Both operands are contracted on their row axis.
theorem mm_apply (oh y : FVec Ideal S2000x128 .f32) (g d : Fin 128) :
    mm (F := Ideal) oh y (ix2 g d) = ∑ r : Fin 2000, oh (ix2 r g) * y (ix2 r d) := by
  unfold mm
  show FloatOps.matmul dot_S2000x128_S2000x128_S128x128_0_0_1_1_n_n (some .fp32) oh y (constant S128x128 .f32 0x00000000#32) (ix2 g d) = _
  rw [Ideal.matmul_constant_zero_apply, ← Equiv.sum_comp (contrEquiv1 dot_S2000x128_S2000x128_S128x128_0_0_1_1_n_n 2000 rfl rfl).symm]
  refine Finset.sum_congr rfl fun k _ => ?_
  have hk := contrEquiv1_symm_val dot_S2000x128_S2000x128_S128x128_0_0_1_1_n_n 2000 rfl rfl k
  congr 2 <;> funext a <;> apply Fin.ext <;> match a with
    | ⟨0, _⟩ => first
      | exact (DotDims.lhsIdx_val_of_single _ rfl _ _).trans hk
      | exact (DotDims.rhsIdx_val_of_single _ rfl _ _).trans hk
    | ⟨1, _⟩ => simp [DotDims.lhsIdx, DotDims.rhsIdx, dot_S2000x128_S2000x128_S128x128_0_0_1_1_n_n] <;> rfl

abbrev SD : ScatterDims Cert.ReferenceIdeal.S128x128 Cert.ReferenceIdeal.S50000x1 Cert.ReferenceIdeal.S50000x128 :=
  Cert.ReferenceIdeal.scatter_S128x128_S50000x1_S50000x128_1_0_0_1

def idsCol (b : IVec S50000 32) : IVec Cert.ReferenceIdeal.S50000x1 32 :=
  broadcastInDim Cert.ReferenceIdeal.S50000x1 ![0] Cert.ReferenceIdeal.Gen.bcast_S50000_S50000x1_0 b

def poolR (Y : FVec Ideal S50000x128 .f32) (b : IVec S50000 32) : FVec Ideal S128x128 .f32 :=
  Host.scatterAdd (F := Ideal) Cert.ReferenceIdeal.scatter_S128x128_S50000x1_S50000x128_1_0_0_1
    (broadcastInDim Cert.ReferenceIdeal.S128x128 ![] Cert.ReferenceIdeal.Gen.bcast_S_S128x128
      (constant (F := Ideal) Cert.ReferenceIdeal.S_ .f32 0x00000000#32))
    (broadcastInDim Cert.ReferenceIdeal.S50000x1 ![0] Cert.ReferenceIdeal.Gen.bcast_S50000_S50000x1_0 b) Y

theorem idsCol_apply (b : IVec S50000 32) (n : Fin 50000) : idsCol b (ix2 n (0 : Fin 1)) = b (ix1 n) :=
  Cert.Alg.Layer.broadcastInDim_a_a1_apply b _ n 0

theorem sd_siIdx (n : Fin 50000) (d' : Fin 128) (c : Fin SD.scatterDimsToOperandDims.length) :
    SD.siIdx (ix2 n d') c = ix2 n (0 : Fin 1) := by
  funext a
  match a with
  | ⟨0, _⟩ => rfl
  | ⟨1, _⟩ => exact Fin.ext (by have h : c.val < 1 := c.isLt; show c.val = 0; omega)

theorem sd_start0 (n : Fin 50000) (d' : Fin 128) (idx : IVec Cert.ReferenceIdeal.S50000x1 32) :
    SD.start (ix2 n d') idx 0 = (idx (ix2 n (0 : Fin 1))).toInt := by
  unfold ScatterDims.start
  rw [dif_pos (show (0 : Fin Cert.ReferenceIdeal.S128x128.rank) ∈ SD.scatterDimsToOperandDims by decide), sd_siIdx]
theorem sd_start1 (n : Fin 50000) (d' : Fin 128) (idx : IVec Cert.ReferenceIdeal.S50000x1 32) :
    SD.start (ix2 n d') idx 1 = 0 := by
  unfold ScatterDims.start
  rw [dif_neg (show ¬ (1 : Fin Cert.ReferenceIdeal.S128x128.rank) ∈ SD.scatterDimsToOperandDims by decide)]
theorem sd_window0 (n : Fin 50000) (d' : Fin 128) : SD.window (ix2 n d') 0 = 0 := by
  unfold ScatterDims.window
  rw [dif_neg (show ¬ (0 : Fin Cert.ReferenceIdeal.S128x128.rank) ∈ SD.sKept by decide)]
theorem sd_window1 (n : Fin 50000) (d' : Fin 128) : SD.window (ix2 n d') 1 = d'.val := by
  unfold ScatterDims.window
  rw [dif_pos (show (1 : Fin Cert.ReferenceIdeal.S128x128.rank) ∈ SD.sKept by decide)]
  rfl

theorem toInt_eq_iff (w : BitVec 32) (g : Fin 128) : w.toInt = (g.val : ℤ) ↔ w = BitVec.ofNat 32 g.val := by
  have hg : g.val < 128 := g.isLt
  have hN : (BitVec.ofNat 32 g.val).toNat = g.val := by rw [BitVec.toNat_ofNat]; omega
  have hI : (BitVec.ofNat 32 g.val).toInt = (g.val : ℤ) := by
    rw [BitVec.toInt_eq_toNat_of_lt (by omega), hN]
  constructor
  · intro h; exact BitVec.eq_of_toInt_eq (h.trans hI.symm)
  · intro h; rw [h, hI]

theorem sd_hit_iff (idx : IVec Cert.ReferenceIdeal.S50000x1 32) (n : Fin 50000) (d' g d : Fin 128) :
    SD.resultIdx? (ix2 n d') idx = some (ix2 g d) ↔ idx (ix2 n (0 : Fin 1)) = BitVec.ofNat 32 g.val ∧ d' = d := by
  have hs0 := sd_start0 n d' idx
  have hs1 := sd_start1 n d' idx
  have hw0 := sd_window0 n d'
  have hw1 := sd_window1 n d'
  have hg : g.val < 128 := g.isLt
  have hd : d.val < 128 := d.isLt
  have hd' : d'.val < 128 := d'.isLt
  rw [← toInt_eq_iff]
  unfold ScatterDims.resultIdx?
  split
  · rename_i h
    have h0 := h 0
    have h1 := h 1
    rw [hs0, hw0] at h0
    rw [hs1, hw1] at h1
    constructor
    · intro e
      have e' := Option.some.inj e
      have e0 : ((SD.start (ix2 n d') idx 0 + (SD.window (ix2 n d') 0 : ℕ)).toNat) = g.val := congrArg (fun f => (f 0).val) e'
      have e1 : ((SD.start (ix2 n d') idx 1 + (SD.window (ix2 n d') 1 : ℕ)).toNat) = d.val := congrArg (fun f => (f 1).val) e'
      rw [hs0, hw0] at e0
      rw [hs1, hw1] at e1
      refine ⟨by omega, Fin.ext (by omega)⟩
    · rintro ⟨e0, e1⟩
      refine congrArg some (funext fun a => Fin.ext ?_)
      match a with
      | ⟨0, _⟩ =>
        show ((SD.start (ix2 n d') idx 0 + (SD.window (ix2 n d') 0 : ℕ)).toNat) = g.val
        rw [hs0, hw0]; omega
      | ⟨1, _⟩ =>
        show ((SD.start (ix2 n d') idx 1 + (SD.window (ix2 n d') 1 : ℕ)).toNat) = d.val
        rw [hs1, hw1, e1]; omega
  · rename_i h
    constructor
    · intro e; cases e
    · rintro ⟨e0, e1⟩
      exfalso
      apply h
      intro a
      match a with
      | ⟨0, _⟩ =>
        show 0 ≤ SD.start (ix2 n d') idx 0 + (SD.window (ix2 n d') 0 : ℕ) ∧ SD.start (ix2 n d') idx 0 + (SD.window (ix2 n d') 0 : ℕ) < ((128 : ℕ) : ℤ)
        rw [hs0, hw0]; omega
      | ⟨1, _⟩ =>
        show 0 ≤ SD.start (ix2 n d') idx 1 + (SD.window (ix2 n d') 1 : ℕ) ∧ SD.start (ix2 n d') idx 1 + (SD.window (ix2 n d') 1 : ℕ) < ((128 : ℕ) : ℤ)
        rw [hs1, hw1]; omega

theorem poolR_apply (Y : FVec Ideal S50000x128 .f32) (b : IVec S50000 32) (g d : Fin 128) :
    poolR Y b (ix2 g d) = 0 + ∑ n : Fin 50000, (if b (ix1 n) = BitVec.ofNat 32 g.val then Y (ix2 n d) else 0) := by
  unfold poolR
  show Ideal.hostScatterAdd SD _ (idsCol b) Y (ix2 g d) = _
  unfold Ideal.hostScatterAdd
  rw [broadcastInDim_scalar_apply, constant_apply, Ideal.ofBits_zero_f32, zero_add, zero_add, Finset.sum_filter, sum_idx2]
  refine Finset.sum_congr rfl fun n _ => ?_
  by_cases hb : b (ix1 n) = BitVec.ofNat 32 g.val
  · rw [if_pos hb, Finset.sum_eq_single d]
    · rw [if_pos ((sd_hit_iff (idsCol b) n d g d).mpr ⟨(idsCol_apply b n).trans hb, rfl⟩)]
    · intro d' _ hne
      rw [if_neg (fun e => hne ((sd_hit_iff (idsCol b) n d' g d).mp e).2)]
    · intro h; exact absurd (Finset.mem_univ _) h
  · rw [if_neg hb]
    refine Finset.sum_eq_zero fun d' _ => ?_
    rw [if_neg (fun e => hb ((idsCol_apply b n).symm.trans ((sd_hit_iff (idsCol b) n d' g d).mp e).1))]

def yb (Y : FVec Ideal S50000x128 .f32) (t : ℕ) (ht : t < 25) : FVec Ideal S2000x128 .f32 :=
  fun q => Y (ix2 ⟨2000 * t + (q 0).val, by have h : (q 0).val < 2000 := (q 0).isLt; omega⟩ (q 1))

def bb (b : IVec S50000 32) (t : ℕ) (ht : t < 25) : IVec S2000x1 32 :=
  fun q => b (ix1 ⟨2000 * t + (q 0).val, by have h : (q 0).val < 2000 := (q 0).isLt; omega⟩)

def accK (Y : FVec Ideal S50000x128 .f32) (b : IVec S50000 32) : (n : ℕ) → n < 25 → FVec Ideal S128x128 .f32
  | 0, h => addf (k2_pay3 (F := Ideal)) (mm (F := Ideal) (onehot2 (F := Ideal) (bb b 0 h)) (yb Y 0 h))
  | n + 1, h => addf (accK Y b n (by omega)) (mm (F := Ideal) (onehot2 (F := Ideal) (bb b (n + 1) h)) (yb Y (n + 1) h))

def term (Y : FVec Ideal S50000x128 .f32) (b : IVec S50000 32) (g d : Fin 128) (m : ℕ) : EReal :=
  if hm : m < 50000 then (if b (ix1 ⟨m, hm⟩) = BitVec.ofNat 32 g.val then Y (ix2 ⟨m, hm⟩ d) else 0) else 0

theorem zeros_apply (i : S128x128.Idx) : k2_pay3 (F := Ideal) i = 0 := by
  unfold k2_pay3
  rw [shapeCast_self]
  exact Ideal.ofBits_zero_f32

theorem block_apply (Y : FVec Ideal S50000x128 .f32) (b : IVec S50000 32) (t : ℕ) (ht : t < 25) (g d : Fin 128) :
    mm (F := Ideal) (onehot2 (F := Ideal) (bb b t ht)) (yb Y t ht) (ix2 g d)
      = ∑ r ∈ Finset.range 2000, term Y b g d (2000 * t + r) := by
  rw [mm_apply, ← Fin.sum_univ_eq_sum_range (fun r => term Y b g d (2000 * t + r)) 2000]
  refine Finset.sum_congr rfl fun r _ => ?_
  have hr : r.val < 2000 := r.isLt
  have hm : 2000 * t + r.val < 50000 := by omega
  rw [onehot2_apply]
  unfold term
  rw [dif_pos hm]
  show (if b (ix1 ⟨2000 * t + r.val, _⟩) = BitVec.ofNat 32 g.val then (1 : EReal) else 0) * Y (ix2 ⟨2000 * t + r.val, _⟩ d) = _
  by_cases hb : b (ix1 ⟨2000 * t + r.val, hm⟩) = BitVec.ofNat 32 g.val
  · rw [if_pos hb, if_pos hb, one_mul]
  · rw [if_neg hb, if_neg hb, zero_mul]

theorem accK_apply (Y : FVec Ideal S50000x128 .f32) (b : IVec S50000 32) (g d : Fin 128) :
    ∀ (n : ℕ) (h : n < 25), accK Y b n h (ix2 g d) = ∑ m ∈ Finset.range (2000 * (n + 1)), term Y b g d m
  | 0, h => by
    show k2_pay3 (F := Ideal) (ix2 g d) + mm (F := Ideal) (onehot2 (F := Ideal) (bb b 0 h)) (yb Y 0 h) (ix2 g d) = _
    rw [zeros_apply, zero_add, block_apply]
    refine Finset.sum_congr rfl fun r _ => ?_
    rw [Nat.mul_zero, Nat.zero_add]
  | n + 1, h => by
    show accK Y b n (by omega) (ix2 g d) + mm (F := Ideal) (onehot2 (F := Ideal) (bb b (n + 1) h)) (yb Y (n + 1) h) (ix2 g d) = _
    rw [accK_apply Y b g d n (by omega), block_apply, Nat.mul_succ 2000 (n + 1), Finset.sum_range_add]

theorem pool_eq (Y : FVec Ideal S50000x128 .f32) (b : IVec S50000 32) :
    accK Y b 24 (by decide) = poolR Y b := by
  funext i
  obtain ⟨g, d, rfl⟩ : ∃ (g : Fin 128) (d : Fin 128), i = ix2 g d := ⟨i 0, i 1, eq_ix2 i⟩
  rw [accK_apply, poolR_apply, zero_add, ← Fin.sum_univ_eq_sum_range (fun m => term Y b g d m) 50000]
  refine Finset.sum_congr rfl fun n _ => ?_
  unfold term
  rw [dif_pos n.isLt]

end Cert.Alg.Pool
-- ==== Proof.KiValue2.lean ====
import proofs.«424841_j16192026706591_2_alg».proof.Proof.KiRegion2Val
import proofs.«424841_j16192026706591_2_alg».proof.Proof.AlgPool
import proofs.«424841_j16192026706591_2_alg».proof.Proof.AlgLayer2
import Idealize.ShloMosaic.Lib.Pipeline.Value
import Idealize.ShloMosaic.Lib.ValueIdx

noncomputable section

namespace Cert.KernelIdeal.Val2

open Cert.KernelIdeal Cert.KernelIdeal.Gen Cert.KernelIdeal.Reg
open Idealize.ShloMosaic Idealize.ShloMosaic.TcCoe Idealize.SL.Sem Idealize.ShloMosaic.ValueIdx
open Cert.Alg.Layer (lyrK ylayer2 ylayer2_apply)
open Cert.Alg.Pool (yb bb accK poolR pool_eq mm onehot2)
open scoped BigOperators

theorem tlt (t : Fin cfg2.N) : t.val < 25 := lt_of_lt_of_eq t.isLt N_2

theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0
    ∧ win2_10.index t (0 : Fin 2) = 0 ∧ win2_10.index t (1 : Fin 2) = 0
    ∧ win2_11.index t (0 : Fin 2) = 0 ∧ win2_11.index t (1 : Fin 2) = 0 :=
  (by decide +kernel : ∀ t : Fin grid2.N, _)

def colBlk {α : Type} (c : S50000x1.Idx → α) (t : ℕ) (ht : t < 25) : S2000x1.Idx → α :=
  fun q => c (ix2 ⟨2000 * t + (q 0).val, by have h : (q 0).val < 2000 := (q 0).isLt; omega⟩ (q 1))

variable (V : (c : Dev nD) → (b : Ref sig .tc) → Buf (Elt Ideal) ((c : Thread nD τ).loc b)) (c : Dev nD)

theorem blk2_0 (t : Fin cfg2.N) : (iblk2 V c 0 t : Vec Ideal S2000x128 .f32) = yb (V c main_v56) t.val (tlt t) :=
  funext fun q => congrArg (V c main_v56 : Vec Ideal S50000x128 .f32) (Shape.idx_ext₂
    (by show win2_0.index t (0 : Fin 2) * 2000 + 1 * (q 0).val = 2000 * t.val + (q 0).val; have := idx2 t; omega)
    (by show win2_0.index t (1 : Fin 2) * 128 + 1 * (q 1).val = (q 1).val; have := idx2 t; omega))

theorem blk2_1 (t : Fin cfg2.N) : (iblk2 V c 1 t : Vec Ideal S2000x128 .f32) = yb (V c main_v46) t.val (tlt t) :=
  funext fun q => congrArg (V c main_v46 : Vec Ideal S50000x128 .f32) (Shape.idx_ext₂
    (by show win2_1.index t (0 : Fin 2) * 2000 + 1 * (q 0).val = 2000 * t.val + (q 0).val; have := idx2 t; omega)
    (by show win2_1.index t (1 : Fin 2) * 128 + 1 * (q 1).val = (q 1).val; have := idx2 t; omega))

theorem blk2_2 (t : Fin cfg2.N) : (iblk2 V c 2 t : Vec Ideal S2000x1 .f32) = colBlk (V c main_v12 : Vec Ideal S50000x1 .f32) t.val (tlt t) :=
  funext fun q => congrArg (V c main_v12 : Vec Ideal S50000x1 .f32) (Shape.idx_ext₂
    (by show win2_2.index t (0 : Fin 2) * 2000 + 1 * (q 0).val = 2000 * t.val + (q 0).val; have := idx2 t; omega)
    (by show win2_2.index t (1 : Fin 2) * 1 + 1 * (q 1).val = (q 1).val; have := idx2 t; omega))

theorem blk2_3 (t : Fin cfg2.N) : (iblk2 V c 3 t : Vec Ideal S128x128 .f32) = V c main_arg9 :=
  funext fun q => congrArg (V c main_arg9 : Vec Ideal S128x128 .f32) (Shape.idx_ext₂
    (by show win2_3.index t (0 : Fin 2) * 128 + 1 * (q 0).val = (q 0).val; have := idx2 t; omega)
    (by show win2_3.index t (1 : Fin 2) * 128 + 1 * (q 1).val = (q 1).val; have := idx2 t; omega))

theorem blk2_4 (t : Fin cfg2.N) : (iblk2 V c 4 t : Vec Ideal S1x128 .f32) = V c main_v57 :=
  funext fun q => congrArg (V c main_v57 : Vec Ideal S1x128 .f32) (Shape.idx_ext₂
    (by show win2_4.index t (0 : Fin 2) * 1 + 1 * (q 0).val = (q 0).val; have := idx2 t; omega)
    (by show win2_4.index t (1 : Fin 2) * 128 + 1 * (q 1).val = (q 1).val; have := idx2 t; omega))

theorem blk2_5 (t : Fin cfg2.N) : (iblk2 V c 5 t : Vec Ideal S128x128 .f32) = V c main_arg11 :=
  funext fun q => congrArg (V c main_arg11 : Vec Ideal S128x128 .f32) (Shape.idx_ext₂
    (by show win2_5.index t (0 : Fin 2) * 128 + 1 * (q 0).val = (q 0).val; have := idx2 t; omega)
    (by show win2_5.index t (1 : Fin 2) * 128 + 1 * (q 1).val = (q 1).val; have := idx2 t; omega))

theorem blk2_6 (t : Fin cfg2.N) : (iblk2 V c 6 t : Vec Ideal S2000x1 .i32) = colBlk (V c main_v22 : Vec Ideal S50000x1 .i32) t.val (tlt t) :=
  funext fun q => congrArg (V c main_v22 : Vec Ideal S50000x1 .i32) (Shape.idx_ext₂
    (by show win2_6.index t (0 : Fin 2) * 2000 + 1 * (q 0).val = 2000 * t.val + (q 0).val; have := idx2 t; omega)
    (by show win2_6.index t (1 : Fin 2) * 1 + 1 * (q 1).val = (q 1).val; have := idx2 t; omega))

theorem blk2_7 (t : Fin cfg2.N) : (iblk2 V c 7 t : Vec Ideal S128x1 .f32) = V c main_v21 :=
  funext fun q => congrArg (V c main_v21 : Vec Ideal S128x1 .f32) (Shape.idx_ext₂
    (by show win2_7.index t (0 : Fin 2) * 128 + 1 * (q 0).val = (q 0).val; have := idx2 t; omega)
    (by show win2_7.index t (1 : Fin 2) * 1 + 1 * (q 1).val = (q 1).val; have := idx2 t; omega))

theorem blk2_8 (t : Fin cfg2.N) : (iblk2 V c 8 t : Vec Ideal S128x128 .f32) = V c main_arg12 :=
  funext fun q => congrArg (V c main_arg12 : Vec Ideal S128x128 .f32) (Shape.idx_ext₂
    (by show win2_8.index t (0 : Fin 2) * 128 + 1 * (q 0).val = (q 0).val; have := idx2 t; omega)
    (by show win2_8.index t (1 : Fin 2) * 128 + 1 * (q 1).val = (q 1).val; have := idx2 t; omega))

theorem blk2_9 (t : Fin cfg2.N) : (iblk2 V c 9 t : Vec Ideal S1x128 .f32) = V c main_v58 :=
  funext fun q => congrArg (V c main_v58 : Vec Ideal S1x128 .f32) (Shape.idx_ext₂
    (by show win2_9.index t (0 : Fin 2) * 1 + 1 * (q 0).val = (q 0).val; have := idx2 t; omega)
    (by show win2_9.index t (1 : Fin 2) * 128 + 1 * (q 1).val = (q 1).val; have := idx2 t; omega))

theorem blk2_10 (t : Fin cfg2.N) : (iblk2 V c 10 t : Vec Ideal S128x10 .f32) = V c main_arg14 :=
  funext fun q => congrArg (V c main_arg14 : Vec Ideal S128x10 .f32) (Shape.idx_ext₂
    (by show win2_10.index t (0 : Fin 2) * 128 + 1 * (q 0).val = (q 0).val; have := idx2 t; omega)
    (by show win2_10.index t (1 : Fin 2) * 10 + 1 * (q 1).val = (q 1).val; have := idx2 t; omega))

theorem blk2_11 (t : Fin cfg2.N) : (iblk2 V c 11 t : Vec Ideal S1x10 .f32) = V c main_v59 :=
  funext fun q => congrArg (V c main_v59 : Vec Ideal S1x10 .f32) (Shape.idx_ext₂
    (by show win2_11.index t (0 : Fin 2) * 1 + 1 * (q 0).val = (q 0).val; have := idx2 t; omega)
    (by show win2_11.index t (1 : Fin 2) * 10 + 1 * (q 1).val = (q 1).val; have := idx2 t; omega))

/-- The layer of a row block of the operands is the row block of the layer of the arrays. -/
theorem layer_blk (a h : Vec Ideal S50000x128 .f32) (inv : Vec Ideal S50000x1 .f32) (Wl Wr : Vec Ideal S128x128 .f32)
    (blr : Vec Ideal S1x128 .f32) (t : ℕ) (ht : t < 25) :
    ylayer2 (F := Ideal) (yb a t ht) (colBlk inv t ht) (yb h t ht) Wl Wr blr = yb (lyrK a h inv Wl Wr blr) t ht := by
  funext i
  obtain ⟨p, q, rfl⟩ : ∃ (p : Fin 2000) (q : Fin 128), i = ix2 p q := ⟨i 0, i 1, eq_ix2 i⟩
  rw [ylayer2_apply]
  rfl

def bcol (b : IVec S50000 32) : IVec S50000x1 32 := shapeCast S50000x1 b shapeCasts_S50000_S50000x1

theorem bcol_blk (b : IVec S50000 32) (t : ℕ) (ht : t < 25) : colBlk (bcol b) t ht = bb b t ht := by
  funext q
  obtain ⟨p, u, rfl⟩ : ∃ (p : Fin 2000) (u : Fin 1), q = ix2 p u := ⟨q 0, q 1, eq_ix2 q⟩
  exact Cert.Alg.Layer.shapeCast_a_a1_apply b shapeCasts_S50000_S50000x1 ⟨2000 * t + p.val, by have := p.isLt; omega⟩ u

/-- A point's step adds to the previous sum the product of the block's one-hot ids with the block of the layer. -/
theorem step_eq (b : IVec S50000 32) (hb : V c main_v22 = bcol b) (t : Fin cfg2.N) (X : Vec Ideal S128x128 .f32) :
    k2_pay1 (F := Ideal) (k2_pay4 (iblk2 V c 0 t) (iblk2 V c 2 t) (iblk2 V c 1 t) (iblk2 V c 3 t) (iblk2 V c 5 t) (iblk2 V c 4 t) (iblk2 V c 6 t) X)
      = addf X (mm (F := Ideal) (onehot2 (F := Ideal) (bb b t.val (tlt t))) (yb (lyrK (V c main_v56) (V c main_v46) (V c main_v12) (V c main_arg9) (V c main_arg11) (V c main_v57)) t.val (tlt t))) := by
  rw [blk2_0, blk2_1, blk2_2, blk2_3, blk2_4, blk2_5, blk2_6, hb, bcol_blk, ← layer_blk]
  unfold k2_pay1
  rw [shapeCast_self]
  rfl

/-- After point n the carried sum is the running sum of the block terms of the layer. -/
theorem acc2 (b : IVec S50000 32) (hb : V c main_v22 = bcol b) :
    ∀ (n : ℕ) (h : n < cfg2.N), (outsAt2 V c n h).2 = accK (lyrK (V c main_v56) (V c main_v46) (V c main_v12) (V c main_arg9) (V c main_arg11) (V c main_v57)) b n (lt_of_lt_of_eq h N_2)
  | 0, h => by rw [scratch2_zero, step_eq V c b hb]; rfl
  | n + 1, h => by rw [scratch2_succ, step_eq V c b hb, acc2 b hb n]; rfl

/-- What the last point leaves is the head of the segment sum, by graph id, of the layer of the arrays found. -/
theorem out2_eq (b : IVec S50000 32) (hb : V c main_v22 = bcol b) (h : 24 < cfg2.N) :
    (outsAt2 V c 24 h).1 = k2_pay2 (F := Ideal) (poolR (lyrK (V c main_v56) (V c main_v46) (V c main_v12) (V c main_arg9) (V c main_arg11) (V c main_v57)) b) (V c main_v21) (V c main_arg12) (V c main_v58)
      (V c main_arg14) (V c main_v59) := by
  rw [output2_last, acc2 V c b hb, blk2_7, blk2_8, blk2_9, blk2_10, blk2_11, pool_eq]

end Cert.KernelIdeal.Val2
-- ==== Proof.AlgHead.lean ====
import proofs.«424841_j16192026706591_2_alg».proof.Proof.AlgLayer

noncomputable section

namespace Cert.Alg.Head

open Idealize.ShloMosaic Idealize.SL.Sem Idealize.ShloMosaic.ValueIdx Cert.Alg.Layer

section KernelSide
open Cert.KernelIdeal Cert.KernelIdeal.Facts₀
variable {F : FTy → Type} [FloatOps F]

def ginv (gc : FVec F S128 .f32) : FVec F S128x1 .f32 :=
  Host.divf (broadcastInDim S128x1 ![] bcast_S_S128x1 (constant S_ .f32 0x3F800000#32))
    (maximumf (shapeCast S128x1 gc shapeCasts_S128_S128x1)
      (broadcastInDim S128x1 ![] bcast_S_S128x1 (constant S_ .f32 0x3F800000#32)))

def b1r (b1 : FVec F S128 .f32) : FVec F S1x128 .f32 := shapeCast S1x128 b1 shapeCasts_S128_S1x128

def b2r (b2 : FVec F S10 .f32) : FVec F S1x10 .f32 := shapeCast S1x10 b2 shapeCasts_S10_S1x10

def meanK (P : FVec F S128x128 .f32) (c : FVec F S128x1 .f32) : FVec F S128x128 .f32 :=
  mulf P (broadcastTo S128x128 (shapeCast S128x1 c shapeCasts_S128x1_S128x1) broadcasts_S128x1_S128x128)

def dense1K (A W : FVec F S128x128 .f32) (r : FVec F S1x128 .f32) : FVec F S128x128 .f32 :=
  maximumf
    (addf
      (matmul dot_S128x128_S128x128_S128x128_1_0_0_1_n_n none (truncf .bf16 A bitsLt_bf16_f32)
        (truncf .bf16 W bitsLt_bf16_f32) (constant S128x128 .f32 0x00000000#32))
      (broadcastTo S128x128 (shapeCast S1x128 r shapeCasts_S1x128_S1x128) broadcasts_S1x128_S128x128))
    (broadcast S128x128 (Scalar.ofBits .f32 0x00000000#32))

def dense2K (A : FVec F S128x128 .f32) (W : FVec F S128x10 .f32) (r : FVec F S1x10 .f32) : FVec F S128x10 .f32 :=
  addf
    (matmul dot_S128x128_S128x10_S128x10_1_0_0_1_n_n none (truncf .bf16 A bitsLt_bf16_f32)
      (truncf .bf16 W bitsLt_bf16_f32) (constant S128x10 .f32 0x00000000#32))
    (broadcastTo S128x10 (shapeCast S1x10 r shapeCasts_S1x10_S1x10) broadcasts_S1x10_S128x10)

def rowmaxK (z : FVec F S128x10 .f32) : FVec F S128 .f32 :=
  maximumf (broadcast S128 (Scalar.ofBits .f32 0xFF800000#32))
    (multiReduction .maximumf [1] S128 z 0xFF800000#32 reduces_S128x10_S128 (.inl rfl) rfl)

def centreK (z : FVec F S128x10 .f32) (m : FVec F S128 .f32) : FVec F S128x10 .f32 :=
  subf z (broadcastTo S128x10 (shapeCast S128x1 m shapeCasts_S128_S128x1) broadcasts_S128x1_S128x10)

def lseK (c : FVec F S128x10 .f32) : FVec F S128x10 .f32 :=
  broadcastTo S128x10
    (log (shapeCast S128x1
      (multiReduction .add [1] S128 (exp c) 0x00000000#32 reduces_S128x10_S128 (.inl rfl) rfl) shapeCasts_S128_S128x1))
    broadcasts_S128x1_S128x10

def lsmK (z : FVec F S128x10 .f32) : FVec F S128x10 .f32 :=
  subf (centreK z (rowmaxK z)) (lseK (centreK z (rowmaxK z)))

theorem k2_pay2_eq (v42 : FVec F S128x128 .f32) (v43 : FVec F S128x1 .f32) (v48 : FVec F S128x128 .f32)
    (v51 : FVec F S1x128 .f32) (v58 : FVec F S128x10 .f32) (v61 : FVec F S1x10 .f32) :
    Cert.KernelIdeal.Gen.k2_pay2 v42 v43 v48 v51 v58 v61
      = lsmK (dense2K (dense1K (meanK v42 v43) v48 v51) v58 v61) := rfl

end KernelSide

section ReferenceSide
open Cert.ReferenceIdeal Cert.ReferenceIdeal.Facts₀
variable {F : FTy → Type} [FloatOps F]

def meanR (P : FVec F S128x128 .f32) (gc : FVec F S128 .f32) : FVec F S128x128 .f32 :=
  Host.divf P (broadcastInDim S128x128 ![0, 1] bcast_S128x1_S128x128_0_1
    (broadcastInDim S128x1 ![0] bcast_S128_S128x1_0
      (maximumf gc (broadcastInDim S128 ![] bcast_S_S128 (constant S_ .f32 0x3F800000#32)))))

def dense1R (A W : FVec F S128x128 .f32) (b : FVec F S128 .f32) : FVec F S128x128 .f32 :=
  maximumf
    (addf (Host.dotGeneral dot_S128x128_S128x128_S128x128_1_0_0_1_n_n none A W)
      (broadcastInDim S128x128 ![0, 1] bcast_S1x128_S128x128_0_1 (broadcastInDim S1x128 ![1] bcast_S128_S1x128_1 b)))
    (broadcastInDim S128x128 ![] bcast_S_S128x128 (constant S_ .f32 0x00000000#32))

def dense2R (A : FVec F S128x128 .f32) (W : FVec F S128x10 .f32) (b : FVec F S10 .f32) : FVec F S128x10 .f32 :=
  addf (Host.dotGeneral dot_S128x128_S128x10_S128x10_1_0_0_1_n_n none A W)
    (broadcastInDim S128x10 ![0, 1] bcast_S1x10_S128x10_0_1 (broadcastInDim S1x10 ![1] bcast_S10_S1x10_1 b))

def rowmaxR (z : FVec F S128x10 .f32) : FVec F S128 .f32 :=
  maximumf (broadcastInDim S128 ![] bcast_S_S128 (constant S_ .f32 0xFF800000#32))
    (Host.reduce FloatOps.maximumf z (constant S_ .f32 0xFF800000#32) reducesTo_S128x10_S128_d1 h_S_)

def centreR (z : FVec F S128x10 .f32) (m : FVec F S128 .f32) : FVec F S128x10 .f32 :=
  subf z (broadcastInDim S128x10 ![0, 1] bcast_S128x1_S128x10_0_1 (broadcastInDim S128x1 ![0] bcast_S128_S128x1_0 m))

def lseR (c : FVec F S128x10 .f32) : FVec F S128x10 .f32 :=
  broadcastInDim S128x10 ![0, 1] bcast_S128x1_S128x10_0_1
    (Host.log (broadcastInDim S128x1 ![0] bcast_S128_S128x1_0
      (Host.reduceAdd (Host.exp c) (constant S_ .f32 0x00000000#32) reducesTo_S128x10_S128_d1 h_S_)))

def lsmR (z : FVec F S128x10 .f32) : FVec F S128x10 .f32 :=
  subf (centreR z (rowmaxR z)) (lseR (centreR z (rowmaxR z)))

def headR (P : FVec F S128x128 .f32) (gc : FVec F S128 .f32) (W1 : FVec F S128x128 .f32) (b1 : FVec F S128 .f32)
    (W2 : FVec F S128x10 .f32) (b2 : FVec F S10 .f32) : FVec F S128x10 .f32 :=
  lsmR (dense2R (dense1R (meanR P gc) W1 b1) W2 b2)

end ReferenceSide

theorem mean_eq (P : FVec Ideal Cert.KernelIdeal.S128x128 .f32) (gc : FVec Ideal Cert.KernelIdeal.S128 .f32) :
    meanK P (ginv gc) = meanR P gc := by
  funext i
  obtain ⟨g, j, rfl⟩ : ∃ (g : Fin 128) (j : Fin 128), i = ix2 g j := ⟨i 0, i 1, eq_ix2 i⟩
  unfold meanK meanR ginv
  rw [mulf_apply, hostDivf_apply, shapeCast_self, broadcastTo_a1_ab_apply, broadcastInDim_a1_ab_apply,
    broadcastInDim_a_a1_apply, hostDivf_apply, maximumf_apply, maximumf_apply, shapeCast_a_a1_apply,
    broadcastInDim_scalar_apply, broadcastInDim_scalar_apply, constant_apply, Ideal.ofBits_one_f32]
  exact Ideal.mul_one_div (lt_of_lt_of_le zero_lt_one (le_max_right _ _)).ne'

-- A vector as one row laid down the rows is the same array however the two programs spell the two steps.
theorem bias_eq {α : Type} {m n : ℕ} (x : (⟨1, ![n]⟩ : Shape).Idx → α) (h1 : (⟨1, ![n]⟩ : Shape).ShapeCasts ⟨2, ![1, n]⟩)
    (h2 : (⟨2, ![1, n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ (shapeCast ⟨2, ![1, n]⟩ x h1) h2) hb
      = broadcastInDim ⟨2, ![m, n]⟩ ![0, 1] hd2 (broadcastInDim ⟨2, ![1, n]⟩ ![1] hd1 x) := by
  funext i
  obtain ⟨g, j, rfl⟩ : ∃ (g : Fin m) (j : Fin n), i = ix2 g j := ⟨i 0, i 1, eq_ix2 i⟩
  rw [shapeCast_self, broadcastTo_1b_ab_apply, shapeCast_a_1a_apply, broadcastInDim_oneRow_apply, broadcastInDim_b_1b_apply]

theorem dense1_eq (A W : FVec Ideal Cert.KernelIdeal.S128x128 .f32) (b : FVec Ideal Cert.KernelIdeal.S128 .f32) :
    dense1K A W (b1r b) = dense1R A W b := by
  unfold dense1K dense1R b1r
  rw [matmul_zero_eq_dotGeneral, bias_eq b _ _ _ Cert.ReferenceIdeal.Facts₀.bcast_S128_S1x128_1 Cert.ReferenceIdeal.Facts₀.bcast_S1x128_S128x128_0_1]
  rfl

theorem dense2_eq (A : FVec Ideal Cert.KernelIdeal.S128x128 .f32) (W : FVec Ideal Cert.KernelIdeal.S128x10 .f32)
    (b : FVec Ideal Cert.KernelIdeal.S10 .f32) : dense2K A W (b2r b) = dense2R A W b := by
  unfold dense2K dense2R b2r
  rw [matmul_zero_eq_dotGeneral, bias_eq b _ _ _ Cert.ReferenceIdeal.Facts₀.bcast_S10_S1x10_1 Cert.ReferenceIdeal.Facts₀.bcast_S1x10_S128x10_0_1]
  rfl

theorem rowmax_eq (z : FVec Ideal Cert.KernelIdeal.S128x10 .f32) : rowmaxK z = rowmaxR z := by
  funext j
  unfold rowmaxK rowmaxR
  rw [maximumf_apply, maximumf_apply]
  refine congrArg₂ max rfl ?_
  refine (Ideal.multiReduction_maximumf_single z 0xFF800000#32 Cert.KernelIdeal.Facts₀.reduces_S128x10_S128
    (.inl rfl) rfl j).trans ?_
  refine Eq.trans ?_ (Host.reduce_eq_fold_single FloatOps.maximumf z _
    Cert.ReferenceIdeal.Facts₀.reducesTo_S128x10_S128_d1 Cert.KernelIdeal.Facts₀.reduces_S128x10_S128
    Cert.ReferenceIdeal.Facts₀.h_S_ j).symm
  rfl

theorem centre_eq (z : FVec Ideal Cert.KernelIdeal.S128x10 .f32) (m : FVec Ideal Cert.KernelIdeal.S128 .f32) :
    centreK z m = centreR z m := by
  funext i
  obtain ⟨g, k, rfl⟩ : ∃ (g : Fin 128) (k : Fin 10), i = ix2 g k := ⟨i 0, i 1, eq_ix2 i⟩
  unfold centreK centreR
  rw [subf_apply, subf_apply, broadcastTo_a1_ab_apply, shapeCast_a_a1_apply, broadcastInDim_a1_ab_apply,
    broadcastInDim_a_a1_apply]

theorem expsum_eq (c : FVec Ideal Cert.KernelIdeal.S128x10 .f32) :
    multiReduction .add [1] Cert.KernelIdeal.S128 (exp c) 0x00000000#32 Cert.KernelIdeal.Facts₀.reduces_S128x10_S128 (.inl rfl) rfl
      = Host.reduceAdd (Host.exp c) (constant Cert.ReferenceIdeal.S_ .f32 0x00000000#32)
          Cert.ReferenceIdeal.Facts₀.reducesTo_S128x10_S128_d1 Cert.ReferenceIdeal.Facts₀.h_S_ :=
  multiReduction_add_eq_hostReduceAdd (Host.exp c) _ _ _ _ _ _ _ Ideal.ofBits_zero_f32

theorem lse_eq (c : FVec Ideal Cert.KernelIdeal.S128x10 .f32) : lseK c = lseR c := by
  funext i
  obtain ⟨g, k, rfl⟩ : ∃ (g : Fin 128) (k : Fin 10), i = ix2 g k := ⟨i 0, i 1, eq_ix2 i⟩
  unfold lseK lseR
  rw [broadcastTo_a1_ab_apply, broadcastInDim_a1_ab_apply]
  show Ideal.log _ = Ideal.log _
  rw [shapeCast_a_a1_apply, broadcastInDim_a_a1_apply, expsum_eq]

theorem head_eq (P : FVec Ideal Cert.KernelIdeal.S128x128 .f32) (gc : FVec Ideal Cert.KernelIdeal.S128 .f32)
    (W1 : FVec Ideal Cert.KernelIdeal.S128x128 .f32) (b1 : FVec Ideal Cert.KernelIdeal.S128 .f32)
    (W2 : FVec Ideal Cert.KernelIdeal.S128x10 .f32) (b2 : FVec Ideal Cert.KernelIdeal.S10 .f32) :
    Cert.KernelIdeal.Gen.k2_pay2 (F := Ideal) P (ginv gc) W1 (b1r b1) W2 (b2r b2) = headR P gc W1 b1 W2 b2 := by
  unfold headR lsmR
  rw [k2_pay2_eq, mean_eq, dense1_eq, dense2_eq, ← rowmax_eq, ← centre_eq, ← lse_eq]
  rfl

end Cert.Alg.Head
-- ==== Proof.RefTop.lean ====
import proofs.«424841_j16192026706591_2_alg».proof.Proof.Gen.ReferenceIdeal.Run
import proofs.«424841_j16192026706591_2_alg».proof.Proof.KiHost
import proofs.«424841_j16192026706591_2_alg».proof.Proof.AlgHead
import proofs.«424841_j16192026706591_2_alg».proof.Proof.AlgPool

noncomputable section

namespace Cert.RefTop

open Cert.ReferenceIdeal Cert.ReferenceIdeal.Facts₀ Idealize.ShloMosaic Idealize.SL.Sem
open Cert.Alg.Head Cert.Alg.Layer Cert.Alg.Pool Cert.KernelIdeal.Val

def refTop (x : FVec Ideal S50000x128 .f32) (ei : IVec S2x800000 32) (b : IVec S50000 32)
    (Wl1 : FVec Ideal S128x128 .f32) (bl1 : FVec Ideal S128 .f32) (Wr1 : FVec Ideal S128x128 .f32)
    (Wl2 : FVec Ideal S128x128 .f32) (bl2 : FVec Ideal S128 .f32) (Wr2 : FVec Ideal S128x128 .f32)
    (Wl3 : FVec Ideal S128x128 .f32) (bl3 : FVec Ideal S128 .f32) (Wr3 : FVec Ideal S128x128 .f32)
    (W1 : FVec Ideal S128x128 .f32) (b1 : FVec Ideal S128 .f32) (W2 : FVec Ideal S128x10 .f32) (b2 : FVec Ideal S10 .f32) :
    FVec Ideal S128x10 .f32 :=
  let L1 := lyrR (aggK (F := Ideal) x ei) (cntK (F := Ideal) ei) x Wl1 bl1 Wr1
  let L2 := lyrR (aggK (F := Ideal) L1 ei) (cntK (F := Ideal) ei) L1 Wl2 bl2 Wr2
  let L3 := lyrR (aggK (F := Ideal) L2 ei) (cntK (F := Ideal) ei) L2 Wl3 bl3 Wr3
  headR (poolR L3 b) (gcntK (F := Ideal) b) W1 b1 W2 b2

theorem ref_eq (m : (ℓ : Loc nD τ sig) → Buf (Elt Ideal) ℓ) (c : Dev nD) :
    Cert.ReferenceIdeal.Value.res_main_v103 (F := Ideal) m c
      = refTop (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15)) := by
  unfold Cert.ReferenceIdeal.Value.res_main_v103 refTop headR poolR lyrR aggK cntK gcntK
  rfl

end Cert.RefTop
-- ==== Proof.Bridge.lean ====
import proofs.«424841_j16192026706591_2_alg».proof.Proof.AlgLayer2
import proofs.«424841_j16192026706591_2_alg».proof.Proof.RefTop

noncomputable section

namespace Cert.Bridge

open Idealize.ShloMosaic Idealize.SL.Sem
open Cert.KernelIdeal Cert.KernelIdeal.Gen Cert.KernelIdeal.Val
open Cert.Alg.Layer Cert.Alg.Head Cert.RefTop

def kTop (x : FVec Ideal S50000x128 .f32) (ei : IVec S2x800000 32) (b : IVec S50000 32)
    (Wl1 : FVec Ideal S128x128 .f32) (bl1 : FVec Ideal S128 .f32) (Wr1 : FVec Ideal S128x128 .f32)
    (Wl2 : FVec Ideal S128x128 .f32) (bl2 : FVec Ideal S128 .f32) (Wr2 : FVec Ideal S128x128 .f32)
    (Wl3 : FVec Ideal S128x128 .f32) (bl3 : FVec Ideal S128 .f32) (Wr3 : FVec Ideal S128x128 .f32)
    (W1 : FVec Ideal S128x128 .f32) (b1 : FVec Ideal S128 .f32) (W2 : FVec Ideal S128x10 .f32) (b2 : FVec Ideal S10 .f32) :
    FVec Ideal S128x10 .f32 :=
  let K1 := lyrK (aggK (F := Ideal) x ei) x (invK (F := Ideal) ei) Wl1 Wr1 (shapeCast S1x128 bl1 shapeCasts_S128_S1x128)
  let K2 := lyrK (aggK (F := Ideal) K1 ei) K1 (invK (F := Ideal) ei) Wl2 Wr2 (shapeCast S1x128 bl2 shapeCasts_S128_S1x128)
  let K3 := lyrK (aggK (F := Ideal) K2 ei) K2 (invK (F := Ideal) ei) Wl3 Wr3 (shapeCast S1x128 bl3 shapeCasts_S128_S1x128)
  k2_pay2 (F := Ideal) (Cert.Alg.Pool.poolR K3 b) (ginvK (F := Ideal) b) W1 (shapeCast S1x128 b1 shapeCasts_S128_S1x128) W2
    (shapeCast S1x10 b2 shapeCasts_S10_S1x10)

theorem top_eq (x : FVec Ideal S50000x128 .f32) (ei : IVec S2x800000 32) (b : IVec S50000 32)
    (Wl1 : FVec Ideal S128x128 .f32) (bl1 : FVec Ideal S128 .f32) (Wr1 : FVec Ideal S128x128 .f32)
    (Wl2 : FVec Ideal S128x128 .f32) (bl2 : FVec Ideal S128 .f32) (Wr2 : FVec Ideal S128x128 .f32)
    (Wl3 : FVec Ideal S128x128 .f32) (bl3 : FVec Ideal S128 .f32) (Wr3 : FVec Ideal S128x128 .f32)
    (W1 : FVec Ideal S128x128 .f32) (b1 : FVec Ideal S128 .f32) (W2 : FVec Ideal S128x10 .f32) (b2 : FVec Ideal S10 .f32) :
    kTop x ei b Wl1 bl1 Wr1 Wl2 bl2 Wr2 Wl3 bl3 Wr3 W1 b1 W2 b2
      = refTop x ei b Wl1 bl1 Wr1 Wl2 bl2 Wr2 Wl3 bl3 Wr3 W1 b1 W2 b2 := by
  unfold kTop refTop
  dsimp only
  rw [← lyrK_eq_lyrR, ← lyrK_eq_lyrR, ← lyrK_eq_lyrR]
  exact head_eq _ (gcntK (F := Ideal) b) W1 b1 W2 b2

end Cert.Bridge
-- ==== Proof.KiArr12.lean ====
import proofs.«424841_j16192026706591_2_alg».proof.Proof.Gen.KernelIdeal.Launch
import proofs.«424841_j16192026706591_2_alg».proof.Proof.Gen.KernelIdeal.Points
import Idealize.ShloMosaic.Lib.Pipeline.Value
import Idealize.ShloMosaic.Lib.Pipeline.FrameBody

noncomputable section

namespace Cert.KernelIdeal.Val

open Cert.KernelIdeal Cert.KernelIdeal.Gen
open Idealize.ShloMosaic Idealize.ShloMosaic.TcCoe
open Idealize.SL.Sem

variable {F : FTy → Type} [FloatOps F]

def tLast : Fin cfg2.N := ⟨24, by rw [show cfg2.N = 25 from N_2]; decide⟩

theorem idx12 : ∀ t : Fin cfg2.N, win2_12.index t (0 : Fin 2) = 0 ∧ win2_12.index t (1 : Fin 2) = 0 :=
  (by decide +kernel : ∀ t : Fin grid2.N, _)

theorem arr12_of_after_vec {c : Dev nD} (dat : Pipeline.Dat τ (Elt F) Unit ℕ (UR sig nD τ) ℕ cfg2 c)
    (G : Vec F S128x10 .f32)
    (h : dat.after 12 ⟨24, by rw [show cfg2.N = 25 from N_2]; decide⟩ = G) : dat.arrAt 12 cfg2.N = G := by
  change dat.after 12 tLast = G at h
  subst h
  have hx := idx12 tLast
  refine dat.arrAt_eq_of_cover 12 _ (fun t hf => ?_) fun (i : S128x10.Idx) => ⟨tLast, (flush2_12 tLast).mpr (by decide), ?_⟩
  · obtain rfl : t = tLast := Fin.ext (by
      have := (flush2_12 t).mp hf; have hN : cfg2.N = 25 := N_2; have := t.isLt; show t.val = 24; omega)
    exact funext fun y => congrArg (dat.after 12 tLast) (Shape.idx_ext₂
      (by show (y 0).val = win2_12.index tLast (0 : Fin 2) * 128 + 1 * (y 0).val; omega)
      (by show (y 1).val = win2_12.index tLast (1 : Fin 2) * 10 + 1 * (y 1).val; omega))
  · have hi0 : (i 0).val < 128 := (i 0).isLt
    have hi1 : (i 1).val < 10 := (i 1).isLt
    show i ∈ ((View.whole main_v60).slice (win2_12.rect tLast)).set
    rw [View.set_slice_whole, Rect.mem_set_unit]
    intro a
    match a with
    | ⟨0, _⟩ => show win2_12.index tLast (0 : Fin 2) * 128 ≤ (i 0).val ∧ (i 0).val < win2_12.index tLast (0 : Fin 2) * 128 + 128; omega
    | ⟨1, _⟩ => show win2_12.index tLast (1 : Fin 2) * 10 ≤ (i 1).val ∧ (i 1).val < win2_12.index tLast (1 : Fin 2) * 10 + 10; omega

end Cert.KernelIdeal.Val
-- ==== Proof.KiResult.lean ====
import proofs.«424841_j16192026706591_2_alg».proof.Proof.KiEntry
import proofs.«424841_j16192026706591_2_alg».proof.Proof.KiValue01
import proofs.«424841_j16192026706591_2_alg».proof.Proof.KiValue2
import proofs.«424841_j16192026706591_2_alg».proof.Proof.Bridge
import proofs.«424841_j16192026706591_2_alg».proof.Proof.KiArr12
import proofs.«424841_j16192026706591_2_alg».proof.Proof.KiTop

noncomputable section

namespace Cert.KernelIdeal.Val

open Cert.KernelIdeal Cert.KernelIdeal.Gen Cert.KernelIdeal.Reg
open Idealize.ShloMosaic Idealize.ShloMosaic.TcCoe
open Idealize.SL.Sem

variable (m : (ℓ : Loc nD τ sig) → Buf (Elt Ideal) ℓ)

/-- The three layers chained, then the head of the third layer's segment sums: the program's result on its arguments. -/
theorem result_eq (c : Dev nD) :
    Cert.KernelIdeal.Reg.result m c = Cert.Bridge.kTop (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h1 : outs1 m 2 main_v34 c = K1 m c := (outs1_v34 m c).trans ((arr0_eq (En1 m) c).trans (entry1 m c))
  have h2 : outs2 m 4 main_v46 c = K2 m c :=
    (outs2_v46 m c).trans ((arr1_eq (En3 m (outs1 m)) c).trans (entry3 m (outs1 m) c h1))
  show (dat2 (En5 m (outs2 m)) c).arrAt 12 cfg2.N = _
  refine arr12_of_after_vec (dat2 (En5 m (outs2 m)) c) _ ?_
  rw [after2_12]
  refine (Cert.KernelIdeal.Val2.out2_eq (En5 m (outs2 m)) c (m ((c : Thread nD τ).loc main_arg2)) (entry5_ids m (outs2 m) c) _).trans ?_
  rw [entry5 m (outs2 m) c h2, entry5_head]
  rfl

end Cert.KernelIdeal.Val
-- ==== Proof.lean ====
import proofs.«424841_j16192026706591_2_alg».proof.Defs
import proofs.«424841_j16192026706591_2_alg».proof.Proof.Gen.Kernel
import proofs.«424841_j16192026706591_2_alg».proof.Proof.Gen.KernelIdeal
import proofs.«424841_j16192026706591_2_alg».proof.Proof.Gen.ReferenceIdeal
import proofs.«424841_j16192026706591_2_alg».proof.Proof.Gen.Pre_finite_inputs
import proofs.«424841_j16192026706591_2_alg».proof.Proof.Gen.ReferenceIdeal.Run
import proofs.«424841_j16192026706591_2_alg».proof.Proof.KbTop
import proofs.«424841_j16192026706591_2_alg».proof.Proof.KiTop
import proofs.«424841_j16192026706591_2_alg».proof.Proof.KiResult
import proofs.«424841_j16192026706591_2_alg».proof.Proof.RefTop
import proofs.«424841_j16192026706591_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Reg.frame m ρ

theorem frame_ki : Cert.frame_KernelIdeal := fun m ρ _ => Cert.KernelIdeal.Reg.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both results are one function of the sixteen arguments: each side is rewritten to the layers, the pooling and the head. -/
theorem algebraic : Cert.algebraic_KernelIdeal_ReferenceIdeal := by
  intro m ρ m' ρ' _ hagree
  refine ⟨fun c => Cert.KernelIdeal.Reg.result m c, Cert.KernelIdeal.Reg.run_full m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  show _ = Cert.KernelIdeal.Reg.result m c
  rw [Cert.RefTop.ref_eq m' c, Cert.KernelIdeal.Val.result_eq m c, Cert.Bridge.top_eq,
    h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
